-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096x4096 .f32) (main_arg9 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S1x4096 .f32) (main_arg5 : FVec F S1x4096 .f32) (main_arg6 : FVec F S4096x4096 .f32) (main_arg7 : FVec F S4096 .f32) (main_arg8 : FVec F S4096x4096 .f32) (main_arg9 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x4096 .f32) (main_arg1 : FVec F S1024x4096 .f32) (main_arg2 : FVec F S4096x4096 .f32) (main_arg3 : FVec F S4096x4096 .f32) (main_arg4 : FVec F S1x4096 .f32) (main_arg5 : FVec F S1x4096 .f32) (main_arg6 : FVec F S4096x4096 .f32) (main_arg7 : FVec F S4096 .f32) (main_arg8 : FVec F S4096x4096 .f32) (main_arg9 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S1024x4096 : Shape := ⟨2, ![1024, 4096]⟩
abbrev S4096x4096 : Shape := ⟨2, ![4096, 4096]⟩
abbrev S1x4096 : Shape := ⟨2, ![1, 4096]⟩
abbrev S4096 : Shape := ⟨1, ![4096]⟩
abbrev S128x4096 : Shape := ⟨2, ![128, 4096]⟩
abbrev S4096x512 : Shape := ⟨2, ![4096, 512]⟩
abbrev S128x512 : Shape := ⟨2, ![128, 512]⟩

abbrev nBuf : Space → Nat
  | .hbm => 20
  | .vmem => 34
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .bf16⟩
  | .hbm, ⟨11, _⟩ => ⟨S4096x4096, .bf16⟩
  | .hbm, ⟨12, _⟩ => ⟨S4096x4096, .bf16⟩
  | .hbm, ⟨13, _⟩ => ⟨S4096x4096, .bf16⟩
  | .hbm, ⟨14, _⟩ => ⟨S1x4096, .f32⟩
  | .hbm, ⟨15, _⟩ => ⟨S1x4096, .f32⟩
  | .hbm, ⟨16, _⟩ => ⟨S1024x4096, .bf16⟩
  | .hbm, ⟨17, _⟩ => ⟨S1024x4096, .bf16⟩
  | .hbm, ⟨18, _⟩ => ⟨S1024x4096, .f32⟩
  | .hbm, ⟨19, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x4096, .f32⟩
  | .local _ .vmem, ⟨9, _⟩ => ⟨S1x4096, .f32⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .bf16⟩
  | .local _ .vmem, ⟨19, _⟩ => ⟨S128x4096, .bf16⟩
  | .local _ .vmem, ⟨20, _⟩ => ⟨S128x4096, .bf16⟩
  | .local _ .vmem, ⟨21, _⟩ => ⟨S128x4096, .bf16⟩
  | .local _ .vmem, ⟨22, _⟩ => ⟨S4096x512, .bf16⟩
  | .local _ .vmem, ⟨23, _⟩ => ⟨S4096x512, .bf16⟩
  | .local _ .vmem, ⟨24, _⟩ => ⟨S4096x512, .bf16⟩
  | .local _ .vmem, ⟨25, _⟩ => ⟨S4096x512, .bf16⟩
  | .local _ .vmem, ⟨26, _⟩ => ⟨S1x4096, .f32⟩
  | .local _ .vmem, ⟨27, _⟩ => ⟨S1x4096, .f32⟩
  | .local _ .vmem, ⟨28, _⟩ => ⟨S128x4096, .f32⟩
  | .local _ .vmem, ⟨29, _⟩ => ⟨S128x4096, .f32⟩
  | .local _ .vmem, ⟨30, _⟩ => ⟨S128x4096, .f32⟩
  | .local _ .vmem, ⟨31, _⟩ => ⟨S128x4096, .f32⟩
  | .local _ .vmem, ⟨32, _⟩ => ⟨S128x4096, .f32⟩
  | .local _ .vmem, ⟨33, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_scratch0 : Ref sig .tc := ⟨.vmem, 32, rfl⟩
abbrev cc1_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_25 : BitVec 32 := 0#32
  let v41 : BitVec 1 := Scalar.cmpi .ne v40 c0_i32_25
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k1_cond2 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bitsLt_bf16_f32 : FTy.bits .bf16 < FTy.bits .f32
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  h_S128x512 : 0 < S128x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  shapeCasts_S128x512_S128x512 : S128x512.ShapeCasts S128x512
  shapeCasts_S1x4096_S1x4096 : S1x4096.ShapeCasts S1x4096
  dot_S128x512_S4096x512_S128x4096_1_1_0_0_n_n_wf : DotDims.WF S128x512 S4096x512 S128x4096 [1] [1] [0] [0] [] []
  hrank0 : 0 < grid0.rank
  k0_mult1_dvd : ∀ i : grid0.Coords, 512 ∣ (k0_mult1 i).toNat
  k0_off1_inb : ∀ i : grid0.Coords, ∀ a, (k0_off1 i) a + S128x512.size a ≤ S128x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S1024x4096.size a
  hwx0_0 : ∀ i : grid0.Coords, EltTy.bits .f32 = 32 ∨ (Rect.block (s := S1024x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S1024x4096.size a
  hwx0_1 : ∀ i : grid0.Coords, EltTy.bits .f32 = 32 ∨ (Rect.block (s := S1024x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .bf16 = 32 ∨ (Rect.block (s := S4096x4096) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x4096.size a
  hwx0_3 : ∀ i : grid0.Coords, EltTy.bits .bf16 = 32 ∨ (Rect.block (s := S4096x4096) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S1024x4096.size a
  hwx0_6 : ∀ i : grid0.Coords, EltTy.bits .bf16 = 32 ∨ (Rect.block (s := S1024x4096) S128x4096.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S1024x4096.size a
  hwx0_7 : ∀ i : grid0.Coords, EltTy.bits .bf16 = 32 ∨ (Rect.block (s := S1024x4096) S128x4096.size (cc0_transform_7 i) (hinb0_7 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S128x512.size a ≤ S128x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S1024x4096.size a
  hwx1_0 : ∀ i : grid1.Coords, EltTy.bits .bf16 = 32 ∨ (Rect.block (s := S1024x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S1024x4096.size a
  hwx1_1 : ∀ i : grid1.Coords, EltTy.bits .bf16 = 32 ∨ (Rect.block (s := S1024x4096) S128x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x4096.size a
  hwx1_2 : ∀ i : grid1.Coords, EltTy.bits .bf16 = 32 ∨ (Rect.block (s := S4096x4096) S4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x4096.size a
  hwx1_3 : ∀ i : grid1.Coords, EltTy.bits .bf16 = 32 ∨ (Rect.block (s := S4096x4096) S4096x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4096.size a ≤ S1024x4096.size a
  hwx1_6 : ∀ i : grid1.Coords, EltTy.bits .f32 = 32 ∨ (Rect.block (s := S1024x4096) S128x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x4096.size a ≤ S1024x4096.size a
  hwx1_7 : ∀ i : grid1.Coords, EltTy.bits .f32 = 32 ∨ (Rect.block (s := S1024x4096) S128x4096.size (cc1_transform_7 i) (hinb1_7 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S128x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S128x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v6_0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4096x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7_0) S128x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v7_1) S128x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S1x4096 : Shape := ⟨2, ![1, 4096]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S1024x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S1024x4096, .f32⟩
  | .hbm, ⟨36, _⟩ => ⟨S4096x4096, .f32⟩
  | .hbm, ⟨37, _⟩ => ⟨S1024x4096, .f32⟩
  | .hbm, ⟨38, _⟩ => ⟨S1x4096, .f32⟩
  | .hbm, ⟨39, _⟩ => ⟨S1024x4096, .f32⟩
  | .hbm, ⟨40, _⟩ => ⟨S1024x4096, .f32⟩
  | .hbm, ⟨41, _⟩ => ⟨S4096x4096, .f32⟩
  | .hbm, ⟨42, _⟩ => ⟨S1024x4096, .f32⟩
  | .hbm, ⟨43, _⟩ => ⟨S1x4096, .f32⟩
  | .hbm, ⟨44, _⟩ => ⟨S1024x4096, .f32⟩
  | .hbm, ⟨45, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S1x4096_S1024x4096_0_1 : S1x4096.BroadcastsInDim S1024x4096 (![0, 1] : Fin 2 → Fin S1024x4096.rank)
  bcast_S4096_S1x4096_1 : S4096.BroadcastsInDim S1x4096 (![1] : Fin 1 → Fin S1x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Kernel.Shared0.lean ====
/-
  Region 0 of the program (the bilinear stage: four K-blocked products accumulated in four scratch arrays, combined at the last K-block),
  what every case of its body shares. The grid is 8 x 8, a point t = 8*m + k: m the row block, k the K-block.
  Here: each window's block at a point as a function of the arrays the region is entered with (V); that an
  input window's current staging buffer holds that block at every point, fetched there or not; the two
  conditions of the body (k = 0: the accumulators are reset; k = 7: the outputs are stored) in closed form
  over the grid; where the output windows are idle and where they are written back; the staging and scratch
  memrefs by name; and the region invariant before the first point with the carried scratch arrays split out.
-/
import proofs.«181483_j14396730376920_1_alg».proof.Proof.Gen.Kernel.Launch
import proofs.«181483_j14396730376920_1_alg».proof.Proof.Gen.Kernel.Skeleton
import proofs.«181483_j14396730376920_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or the block index did not move since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or the block index did not move since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or the block index did not move since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or the block index did not move since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or the block index did not move since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or the block index did not move since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, over the grid -/

/-- The first condition: the K-block index is 0 (the accumulators are reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second condition: the K-block index is 7 (the outputs are stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle, and where the outputs are written back -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- Output window 6 is stored only at k = 7: idle, and not written back, at every other point. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- Output window 7 is stored only at k = 7: idle, and not written back, at every other point. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .bf16 := win0_7.stage (cfg0.slots t 7)
abbrev hs0_7 (t : Fin cfg0.N) : (ms0_7 t).IsWhole := hstage0_7 ((cfg0.slots t 7).cast nbuf0_7)
/-- One staging buffer of output window 6, through which what the body leaves there is stated. -/
abbrev VO0_6 : View sig .tc .vmem S128x4096 .bf16 := (Memref.whole cc0_stg6_0 : Memref sig .tc .vmem S128x4096 .bf16).view
/-- One staging buffer of output window 7, through which what the body leaves there is stated. -/
abbrev VO0_7 : View sig .tc .vmem S128x4096 .bf16 := (Memref.whole cc0_stg7_0 : Memref sig .tc .vmem S128x4096 .bf16).view
/-- Scratch array 0: a whole scoped buffer of the kernel's own, carried from point to point. -/
abbrev scM0_0 : Memref sig .tc .vmem S128x4096 .f32 := Memref.whole cc0_scratch0
abbrev VS0_0 : View sig .tc .vmem S128x4096 .f32 := scM0_0.view
/-- Scratch array 1: a whole scoped buffer of the kernel's own, carried from point to point. -/
abbrev scM0_1 : Memref sig .tc .vmem S128x4096 .f32 := Memref.whole cc0_scratch1
abbrev VS0_1 : View sig .tc .vmem S128x4096 .f32 := scM0_1.view
/-- Scratch array 2: a whole scoped buffer of the kernel's own, carried from point to point. -/
abbrev scM0_2 : Memref sig .tc .vmem S128x4096 .f32 := Memref.whole cc0_scratch2
abbrev VS0_2 : View sig .tc .vmem S128x4096 .f32 := scM0_2.view
/-- Scratch array 3: a whole scoped buffer of the kernel's own, carried from point to point. -/
abbrev scM0_3 : Memref sig .tc .vmem S128x4096 .f32 := Memref.whole cc0_scratch3
abbrev VS0_3 : View sig .tc .vmem S128x4096 .f32 := scM0_3.view

/-! ## The region invariant before the first point -/

/-- The scoped buffers of the core that are neither a staging buffer of this region nor one of its scratch arrays,
    each whole at some contents: they pass through the region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

end Cert.Kernel.Fr

end
-- ==== Proof.LibPieces.lean ====
import Idealize.ShloMosaic.Lib.Pipeline.Frame

noncomputable section

namespace Cert.LibPieces

open Idealize.ShloMosaic Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The pieces of `L` cover the shape. -/
def Covers {sh : Shape} {e : EltTy} (L : List (View.Piece Val sh e)) : Prop := ∀ y, ∃ p ∈ L, y ∈ p.1.set

/-- Pieces that cover the shape fix what is read back, whatever they were written over and through whichever view. -/
theorem owns_of_writes (c : Thread nD τ) {sp : Space} {sh : Shape} {e : EltTy} (m : Memref sig c.2.kind sp sh e) (q : PosShare TreeShare)
    {sig' : RefSig} {κ' : Kind} {sp' : Space} (v' : View sig' κ' sp' sh e) (f' : v'.ty.Contents Val) (L : List (View.Piece Val sh e))
    (h : Covers L) :
    iprop(∃ f, m.view.loc c ↦[m.view.set]{q} m.view.writes Val f L) ⊢ (owns c m q (v'.read Val (v'.writes Val f' L)) : sProp 𝕄) := by
  iintro ⟨%f, H⟩
  unfold owns; iexists _; isplitr
  swap; · iexact H
  ipureintro; exact View.read_writes_of_cover _ _ _ _ _ h

/-- A whole memref read at `X` is its buffer at the one contents that read `X`. -/
theorem owns_eq_unread (c : Thread nD τ) {sp : Space} {sh : Shape} {e : EltTy} {m : Memref sig c.2.kind sp sh e} (h : m.IsWhole)
    (q : PosShare TreeShare) (X : sh.Idx → Val e) :
    (owns c m q X : sProp 𝕄) = (m.view.loc c ↦[m.view.set]{q} h.unread X) := by
  unfold owns
  have h₁ : iprop(∃ f, ⌜m.view.read Val f = X⌝ ∗ (m.view.loc c ↦[m.view.set]{q} f)) ⊢ (m.view.loc c ↦[m.view.set]{q} h.unread X : sProp 𝕄) := by
    iintro ⟨%f, %hf, H⟩; obtain rfl := h.eq_unread hf; iexact H
  have h₂ : (m.view.loc c ↦[m.view.set]{q} h.unread X : sProp 𝕄) ⊢ iprop(∃ f, ⌜m.view.read Val f = X⌝ ∗ (m.view.loc c ↦[m.view.set]{q} f)) := by
    iintro H; iexists _; isplitr; · ipureintro; exact h.read_unread _
    iexact H
  exact BI.equiv_iff.mp ⟨h₁, h₂⟩

end Cert.LibPieces

end
-- ==== Proof.Kernel.Run0B.lean ====
import proofs.«181483_j14396730376920_1_alg».proof.Proof.Kernel.Shared0
import proofs.«181483_j14396730376920_1_alg».proof.Proof.LibPieces

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

set_option maxHeartbeats 2000000 in

noncomputable def kernelRun0_B (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .bf16) (harg8 : arg8.IsWhole) (arg9 : Memref sig .tc .vmem S128x4096 .bf16) (harg9 : arg9.IsWhole) (arg10 : Memref sig .tc .vmem S128x4096 .f32) (harg10 : arg10.IsWhole) (arg11 : Memref sig .tc .vmem S128x4096 .f32) (harg11 : arg11.IsWhole) (arg12 : Memref sig .tc .vmem S128x4096 .f32) (harg12 : arg12.IsWhole) (arg13 : Memref sig .tc .vmem S128x4096 .f32) (harg13 : arg13.IsWhole) (hc0 : ¬cond0_0 i) (hc1 : ¬cond0_1 i)
    (x0 : Vec F S128x4096 .f32) (x1 : Vec F S128x4096 .f32) (x2 : Vec F S4096x512 .bf16) (x3 : Vec F S4096x512 .bf16) (x4 : Vec F S1x4096 .f32) (x5 : Vec F S1x4096 .f32)
    (xs0 : Vec F S128x4096 .f32) (xs1 : Vec F S128x4096 .f32) (xs2 : Vec F S128x4096 .f32) (xs3 : Vec F S128x4096 .f32) :
    Σ' (LS0 : List (View.Piece (Elt F) S128x4096 .f32)) (LS1 : List (View.Piece (Elt F) S128x4096 .f32)) (LS2 : List (View.Piece (Elt F) S128x4096 .f32)), { LS3 : List (View.Piece (Elt F) S128x4096 .f32) //
      ∀ (xi6 : Vec F S128x4096 .bf16) (xi7 : Vec F S128x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ (∃ f, arg13.view.loc (c : Thread nD τ) ↦[arg13.view.set]{fullShare} arg13.view.writes (Elt F) f LS3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__stage1_kernel_eq_skeleton]; unfold cc0__stage1_kernel_skel
    simp only [k0_part1_eq_skeleton]
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11, owns_eq_unread (c : Thread nD τ) harg12, owns_eq_unread (c : Thread nD τ) harg13]
    iintro ⟨H0, H1, H2, H3, H4, H5, H6, H7, HS0, HS1, HS2, HS3, Hk⟩
    sl_exec (disch := first | exact hc0 | exact hc1)
    sl_step
    iapply Hk
    iframe H0 H1 H2 H3 H4 H5 H6 H7
    isplitl [HS0]; · iexists _; iexact HS0
    isplitl [HS1]; · iexists _; iexact HS1
    isplitl [HS2]; · iexists _; iexact HS2
    iexists _; iexact HS3

end Cert.Kernel.Fr

end
-- ==== Proof.Kernel.Run0A.lean ====
import proofs.«181483_j14396730376920_1_alg».proof.Proof.Kernel.Run0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

set_option maxHeartbeats 2000000 in

noncomputable def kernelRun0_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .bf16) (harg8 : arg8.IsWhole) (arg9 : Memref sig .tc .vmem S128x4096 .bf16) (harg9 : arg9.IsWhole) (arg10 : Memref sig .tc .vmem S128x4096 .f32) (harg10 : arg10.IsWhole) (arg11 : Memref sig .tc .vmem S128x4096 .f32) (harg11 : arg11.IsWhole) (arg12 : Memref sig .tc .vmem S128x4096 .f32) (harg12 : arg12.IsWhole) (arg13 : Memref sig .tc .vmem S128x4096 .f32) (harg13 : arg13.IsWhole) (hc0 : cond0_0 i) (hc1 : ¬cond0_1 i)
    (x0 : Vec F S128x4096 .f32) (x1 : Vec F S128x4096 .f32) (x2 : Vec F S4096x512 .bf16) (x3 : Vec F S4096x512 .bf16) (x4 : Vec F S1x4096 .f32) (x5 : Vec F S1x4096 .f32) :
    Σ' (LS0 : List (View.Piece (Elt F) S128x4096 .f32)) (LS1 : List (View.Piece (Elt F) S128x4096 .f32)) (LS2 : List (View.Piece (Elt F) S128x4096 .f32)), { LS3 : List (View.Piece (Elt F) S128x4096 .f32) //
      ∀ (xi6 : Vec F S128x4096 .bf16) (xi7 : Vec F S128x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ (∃ f, arg13.view.loc (c : Thread nD τ) ↦[arg13.view.set]{fullShare} arg13.view.writes (Elt F) f LS3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__stage1_kernel_eq_skeleton]; unfold cc0__stage1_kernel_skel
    simp only [k0_part1_eq_skeleton]
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11, owns_eq_unread (c : Thread nD τ) harg12, owns_eq_unread (c : Thread nD τ) harg13]
    iintro ⟨H0, H1, H2, H3, H4, H5, H6, H7, ⟨%ds0, HS0⟩, ⟨%ds1, HS1⟩, ⟨%ds2, HS2⟩, ⟨%ds3, HS3⟩, Hk⟩
    sl_exec (disch := first | exact hc0 | exact hc1)
    sl_step
    iapply Hk
    iframe H0 H1 H2 H3 H4 H5 H6 H7
    isplitl [HS0]; · iexists _; iexact HS0
    isplitl [HS1]; · iexists _; iexact HS1
    isplitl [HS2]; · iexists _; iexact HS2
    iexists _; iexact HS3

end Cert.Kernel.Fr

end
-- ==== Proof.Kernel.Run0C.lean ====
import proofs.«181483_j14396730376920_1_alg».proof.Proof.Kernel.Run0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

set_option maxHeartbeats 2000000 in

noncomputable def kernelRun0_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .bf16) (harg8 : arg8.IsWhole) (arg9 : Memref sig .tc .vmem S128x4096 .bf16) (harg9 : arg9.IsWhole) (arg10 : Memref sig .tc .vmem S128x4096 .f32) (harg10 : arg10.IsWhole) (arg11 : Memref sig .tc .vmem S128x4096 .f32) (harg11 : arg11.IsWhole) (arg12 : Memref sig .tc .vmem S128x4096 .f32) (harg12 : arg12.IsWhole) (arg13 : Memref sig .tc .vmem S128x4096 .f32) (harg13 : arg13.IsWhole) (hc0 : ¬cond0_0 i) (hc1 : cond0_1 i)
    (x0 : Vec F S128x4096 .f32) (x1 : Vec F S128x4096 .f32) (x2 : Vec F S4096x512 .bf16) (x3 : Vec F S4096x512 .bf16) (x4 : Vec F S1x4096 .f32) (x5 : Vec F S1x4096 .f32)
    (xs0 : Vec F S128x4096 .f32) (xs1 : Vec F S128x4096 .f32) (xs2 : Vec F S128x4096 .f32) (xs3 : Vec F S128x4096 .f32) :
    Σ' (L6 : List (View.Piece (Elt F) S128x4096 .bf16)) (L7 : List (View.Piece (Elt F) S128x4096 .bf16)) (LS0 : List (View.Piece (Elt F) S128x4096 .f32)) (LS1 : List (View.Piece (Elt F) S128x4096 .f32)) (LS2 : List (View.Piece (Elt F) S128x4096 .f32)), { LS3 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ (∃ f, arg13.view.loc (c : Thread nD τ) ↦[arg13.view.set]{fullShare} arg13.view.writes (Elt F) f LS3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__stage1_kernel_eq_skeleton]; unfold cc0__stage1_kernel_skel
    simp only [k0_part1_eq_skeleton]
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11, owns_eq_unread (c : Thread nD τ) harg12, owns_eq_unread (c : Thread nD τ) harg13]
    iintro ⟨H0, H1, H2, H3, H4, H5, ⟨%d6, H6⟩, ⟨%d7, H7⟩, HS0, HS1, HS2, HS3, Hk⟩
    sl_exec (disch := first | exact hc0 | exact hc1)
    sl_step
    iapply Hk
    iframe H0 H1 H2 H3 H4 H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.Kernel.Fr

end
-- ==== Proof.Kernel.Body0.lean ====
import proofs.«181483_j14396730376920_1_alg».proof.Proof.Kernel.Run0C
import proofs.«181483_j14396730376920_1_alg».proof.Proof.LibPieces

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev runA0 (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    ((hcond0_0 t).mpr h0) (fun h => h1 ((hcond0_1 t).mp h)) (iblk0 V c 0 t) (iblk0 V c 1 t) (iblk0 V c 2 t) (iblk0 V c 3 t) (iblk0 V c 4 t) (iblk0 V c 5 t)

abbrev runB0 (c : Dev nD) (t : Fin cfg0.N) (h0 : ¬t.val % 8 = 0) (h1 : ¬t.val % 8 = 7) (s0 s1 s2 s3 : Vec F S128x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) s0 s1 s2 s3

abbrev runC0 (c : Dev nD) (t : Fin cfg0.N) (h0 : ¬t.val % 8 = 0) (h1 : t.val % 8 = 7) (s0 s1 s2 s3 : Vec F S128x4096 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) s0 s1 s2 s3

end

def rdS0 (L : List (View.Piece (Elt F) S128x4096 .f32)) : Vec F S128x4096 .f32 :=
  VS0_0.read (Elt F) (VS0_0.writes (Elt F) VS0_0.junk L)

def rdO0 (L : List (View.Piece (Elt F) S128x4096 .bf16)) : Vec F S128x4096 .bf16 :=
  VO0_6.read (Elt F) (VO0_6.writes (Elt F) VO0_6.junk L)

/-! The pieces every run leaves in an array tile it. -/
section
variable {c : Dev nD} {i : grid0.Coords} {arg2 : Memref sig .tc .vmem S128x4096 .f32} {harg2 : arg2.IsWhole} {arg3 : Memref sig .tc .vmem S128x4096 .f32} {harg3 : arg3.IsWhole} {arg4 : Memref sig .tc .vmem S4096x512 .bf16} {harg4 : arg4.IsWhole} {arg5 : Memref sig .tc .vmem S4096x512 .bf16} {harg5 : arg5.IsWhole} {arg6 : Memref sig .tc .vmem S1x4096 .f32} {harg6 : arg6.IsWhole} {arg7 : Memref sig .tc .vmem S1x4096 .f32} {harg7 : arg7.IsWhole} {arg8 : Memref sig .tc .vmem S128x4096 .bf16} {harg8 : arg8.IsWhole} {arg9 : Memref sig .tc .vmem S128x4096 .bf16} {harg9 : arg9.IsWhole} {arg10 : Memref sig .tc .vmem S128x4096 .f32} {harg10 : arg10.IsWhole} {arg11 : Memref sig .tc .vmem S128x4096 .f32} {harg11 : arg11.IsWhole} {arg12 : Memref sig .tc .vmem S128x4096 .f32} {harg12 : arg12.IsWhole} {arg13 : Memref sig .tc .vmem S128x4096 .f32} {harg13 : arg13.IsWhole}

section
variable {hc0 : cond0_0 i} {hc1 : ¬cond0_1 i} {x0 x1 : Vec F S128x4096 .f32} {x2 x3 : Vec F S4096x512 .bf16} {x4 x5 : Vec F S1x4096 .f32}
theorem coverA0_0 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1 := View.cover_of_tiledL _ S128x4096.size (by sl_kernel_rfl)
theorem coverA0_1 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 := View.cover_of_tiledL _ S128x4096.size (by sl_kernel_rfl)
theorem coverA0_2 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 := View.cover_of_tiledL _ S128x4096.size (by sl_kernel_rfl)
theorem coverA0_3 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 := View.cover_of_tiledL _ S128x4096.size (by sl_kernel_rfl)
end

section
variable {hc0 : ¬cond0_0 i} {hc1 : ¬cond0_1 i} {x0 x1 : Vec F S128x4096 .f32} {x2 x3 : Vec F S4096x512 .bf16} {x4 x5 : Vec F S1x4096 .f32} {xs0 xs1 xs2 xs3 : Vec F S128x4096 .f32}
theorem coverB0_0 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 := View.cover_of_tiledL _ S128x4096.size (by sl_kernel_rfl)
theorem coverB0_1 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 := View.cover_of_tiledL _ S128x4096.size (by sl_kernel_rfl)
theorem coverB0_2 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 := View.cover_of_tiledL _ S128x4096.size (by sl_kernel_rfl)
theorem coverB0_3 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 := View.cover_of_tiledL _ S128x4096.size (by sl_kernel_rfl)
end

section
variable {hc0 : ¬cond0_0 i} {hc1 : cond0_1 i} {x0 x1 : Vec F S128x4096 .f32} {x2 x3 : Vec F S4096x512 .bf16} {x4 x5 : Vec F S1x4096 .f32} {xs0 xs1 xs2 xs3 : Vec F S128x4096 .f32}
theorem coverC0_6 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 := View.cover_of_tiledL _ S128x4096.size (by sl_kernel_rfl)
theorem coverC0_7 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 := View.cover_of_tiledL _ S128x4096.size (by sl_kernel_rfl)
theorem coverC0_S0 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 := View.cover_of_tiledL _ S128x4096.size (by sl_kernel_rfl)
theorem coverC0_S1 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 := View.cover_of_tiledL _ S128x4096.size (by sl_kernel_rfl)
theorem coverC0_S2 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1 := View.cover_of_tiledL _ S128x4096.size (by sl_kernel_rfl)
theorem coverC0_S3 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1 := View.cover_of_tiledL _ S128x4096.size (by sl_kernel_rfl)
end

end

section
variable (V : (c : Dev nD) → (b : Ref sig .tc) → Buf (Elt F) ((c : Thread nD τ).loc b))

set_option maxHeartbeats 3200000 in
/-- What the scratch arrays hold after the body at position `n`: the first K-block's run over anything, every later run over what position `n - 1` left. -/
def scAt0 (c : Dev nD) : (n : ℕ) → n < cfg0.N → Vec F S128x4096 .f32 × Vec F S128x4096 .f32 × Vec F S128x4096 .f32 × Vec F S128x4096 .f32
  | 0, hn => (rdS0 (runA0 V c ⟨0, hn⟩ (Nat.zero_mod _) (show ¬(0 % 8 = 7) by decide)).1,
      rdS0 (runA0 V c ⟨0, hn⟩ (Nat.zero_mod _) (show ¬(0 % 8 = 7) by decide)).2.1,
      rdS0 (runA0 V c ⟨0, hn⟩ (Nat.zero_mod _) (show ¬(0 % 8 = 7) by decide)).2.2.1,
      rdS0 (runA0 V c ⟨0, hn⟩ (Nat.zero_mod _) (show ¬(0 % 8 = 7) by decide)).2.2.2.1)
  | n + 1, hn =>
    if h0 : (n + 1) % 8 = 0 then
      (rdS0 (runA0 V c ⟨n + 1, hn⟩ h0 (show ¬((n + 1) % 8 = 7) by omega)).1,
      rdS0 (runA0 V c ⟨n + 1, hn⟩ h0 (show ¬((n + 1) % 8 = 7) by omega)).2.1,
      rdS0 (runA0 V c ⟨n + 1, hn⟩ h0 (show ¬((n + 1) % 8 = 7) by omega)).2.2.1,
      rdS0 (runA0 V c ⟨n + 1, hn⟩ h0 (show ¬((n + 1) % 8 = 7) by omega)).2.2.2.1)
    else
      if h1 : (n + 1) % 8 = 7 then
        (rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.1,
      rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.1,
      rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.2.1,
      rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.2.2.1)
      else
        (rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).1,
      rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.1,
      rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.1,
      rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.1)

theorem pred_lt0 (t : Fin cfg0.N) : t.val - 1 < cfg0.N := Nat.lt_of_le_of_lt (Nat.sub_le _ _) t.isLt

theorem scAt0_A (c : Dev nD) (t : Fin cfg0.N) (h0 : t.val % 8 = 0) (h1 : ¬t.val % 8 = 7) :
    scAt0 V c t.val t.isLt = (rdS0 (runA0 V c t h0 h1).1,
      rdS0 (runA0 V c t h0 h1).2.1,
      rdS0 (runA0 V c t h0 h1).2.2.1,
      rdS0 (runA0 V c t h0 h1).2.2.2.1) := by
  obtain ⟨n, hn⟩ := t
  cases n with
  | zero => exact rfl
  | succ n => exact (dif_pos h0).trans rfl

theorem scAt0_B (c : Dev nD) (t : Fin cfg0.N) (h0 : ¬t.val % 8 = 0) (h1 : ¬t.val % 8 = 7) :
    scAt0 V c t.val t.isLt = (rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).1,
      rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.1,
      rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.1,
      rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.1) := by
  obtain ⟨n, hn⟩ := t
  cases n with
  | zero => exact absurd (Nat.zero_mod _) h0
  | succ n => exact (dif_neg h0).trans ((dif_neg h1).trans rfl)

theorem scAt0_C (c : Dev nD) (t : Fin cfg0.N) (h0 : ¬t.val % 8 = 0) (h1 : t.val % 8 = 7) :
    scAt0 V c t.val t.isLt = (rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.1,
      rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.1,
      rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.2.1,
      rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.2.2.1) := by
  obtain ⟨n, hn⟩ := t
  cases n with
  | zero => exact absurd (Nat.zero_mod _) h0
  | succ n => exact (dif_neg h0).trans ((dif_pos h1).trans rfl)

/-- An output's block after point `t`: what the last K-block's run stored. -/
def outAt0_6 (c : Dev nD) (t : Fin cfg0.N) : Vec F S128x4096 .bf16 :=
  if h1 : t.val % 8 = 7 then
    rdO0 (runC0 V c t (show ¬(t.val % 8 = 0) by omega) h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).1
  else VO0_6.read (Elt F) VO0_6.junk
def outAt0_7 (c : Dev nD) (t : Fin cfg0.N) : Vec F S128x4096 .bf16 :=
  if h1 : t.val % 8 = 7 then
    rdO0 (runC0 V c t (show ¬(t.val % 8 = 0) by omega) h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.1
  else VO0_7.read (Elt F) VO0_7.junk

theorem outAt0_6_C (c : Dev nD) (t : Fin cfg0.N) (h0 : ¬t.val % 8 = 0) (h1 : t.val % 8 = 7) :
    outAt0_6 V c t = rdO0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).1 := by
  unfold outAt0_6; rw [dif_pos h1]
theorem outAt0_7_C (c : Dev nD) (t : Fin cfg0.N) (h0 : ¬t.val % 8 = 0) (h1 : t.val % 8 = 7) :
    outAt0_7 V c t = rdO0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.1 := by
  unfold outAt0_7; rw [dif_pos h1]

theorem PhiA0_split (c : Dev nD) : (Pipeline.ΦA spec0 c : sProp 𝕄) ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ other0 c ∗ (∃ r, prngReg c r)) := by
  unfold Pipeline.ΦA other0; rw [scopedRest0_eq]; simp only [scM0_0, scM0_1, scM0_2, scM0_3, owns_whole]
  iintro ⟨⟨HS0, HS1, HS2, HS3, Hr⟩, Hg⟩
  isplitl [HS0]; · iexact HS0
  isplitl [HS1]; · iexact HS1
  isplitl [HS2]; · iexact HS2
  isplitl [HS3]; · iexact HS3
  isplitl [Hr]; · iexact Hr
  iexact Hg

theorem PhiA0_join (c : Dev nD) : iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ other0 c ∗ (∃ r, prngReg c r)) ⊢ (Pipeline.ΦA spec0 c : sProp 𝕄) := by
  unfold Pipeline.ΦA other0; rw [scopedRest0_eq]; simp only [scM0_0, scM0_1, scM0_2, scM0_3, owns_whole]
  iintro ⟨HS0, HS1, HS2, HS3, Hr, Hg⟩
  isplitr [Hg]
  swap; · iexact Hg
  isplitl [HS0]; · iexact HS0
  isplitl [HS1]; · iexact HS1
  isplitl [HS2]; · iexact HS2
  isplitl [HS3]; · iexact HS3
  iexact Hr

/-- The invariant carried from point to point: the scratch arrays at what the point before left. -/
def PhiS0 (c : Dev nD) : (n : ℕ) → n ≤ cfg0.N → sProp 𝕄
  | 0, _ => Pipeline.ΦA spec0 c
  | n + 1, hn => iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2 ∗ other0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2 ∗ other0 c ∗ (∃ r, prngReg c r)) := rfl
theorem PhiS0_pos (c : Dev nD) (n : ℕ) (h : n ≤ cfg0.N) (hz : n ≠ 0) :
    PhiS0 V c n h = iprop(owns (c : Thread nD τ) scM0_0 fullShare (scAt0 V c (n - 1) (by omega)).1 ∗ owns (c : Thread nD τ) scM0_1 fullShare (scAt0 V c (n - 1) (by omega)).2.1 ∗ owns (c : Thread nD τ) scM0_2 fullShare (scAt0 V c (n - 1) (by omega)).2.2.1 ∗ owns (c : Thread nD τ) scM0_3 fullShare (scAt0 V c (n - 1) (by omega)).2.2.2 ∗ other0 c ∗ (∃ r, prngReg c r)) := by
  cases n with
  | zero => exact absurd rfl hz
  | succ n => rfl

/-- At any position the invariant yields the scratch arrays at some contents. -/
theorem PhiS0_forget (c : Dev nD) (n : ℕ) (h : n ≤ cfg0.N) :
    PhiS0 V c n h ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ other0 c ∗ (∃ r, prngReg c r)) := by
  cases n with
  | zero => exact PhiA0_split c
  | succ n =>
    rw [PhiS0_succ]
    iintro ⟨HS0, HS1, HS2, HS3, Hr⟩
    isplitl [HS0]; · iexists _; iexact HS0
    isplitl [HS1]; · iexists _; iexact HS1
    isplitl [HS2]; · iexists _; iexact HS2
    isplitl [HS3]; · iexists _; iexact HS3
    iexact Hr

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0_6 V c t
    | ⟨7, _⟩ => outAt0_7 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outAt0_6 V c t := by dsimp only [dat0]
theorem after0_7 (c : Dev nD) (t : Fin cfg0.N) : (dat0 V c).after 7 t = outAt0_7 V c t := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the K-block index picks the run; the invariant lends the run the scratch arrays and takes them back at the pieces it wrote, which cover them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 64 := lt_of_lt_of_eq t.isLt (show cfg0.N = 64 from N_0)
  by_cases h1 : t.val % 8 = 7
  · have h0 : ¬t.val % 8 = 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [show (dat0 V c).leavesExact 7 t = owns (c : Thread nD τ) (ms0_7 t) fullShare ((dat0 V c).after 7 t) from by
      unfold Dat.leavesExact; rw [liveAt0_7 t ((hcond0_1 t).mpr h1)], after0_7]
    rw [scAt0_C V c t h0 h1, outAt0_6_C V c t h0 h1, outAt0_7_C V c t h0 h1, PhiS0_pos V c _ _ (by omega)]
    unfold rdS0 rdO0; dsimp only
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC0 V c t h0 h1 _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr]
    · isplitl [HS0]; · iapply owns_of_writes (h := coverC0_S0); iexact HS0
      isplitl [HS1]; · iapply owns_of_writes (h := coverC0_S1); iexact HS1
      isplitl [HS2]; · iapply owns_of_writes (h := coverC0_S2); iexact HS2
      isplitl [HS3]; · iapply owns_of_writes (h := coverC0_S3); iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply owns_of_writes (h := coverC0_6); iexact H6
    iapply owns_of_writes (h := coverC0_7); iexact H7
  · rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    by_cases h0 : t.val % 8 = 0
    · rw [scAt0_A V c t h0 h1]
      unfold rdS0; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := PhiS0_forget V c _ _ $$ HΦ
      icases HΦ' with ⟨HS0, HS1, HS2, HS3, Hr⟩
      iapply ((runA0 V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hr]
      · isplitl [HS0]; · iapply owns_of_writes (h := coverA0_0); iexact HS0
        isplitl [HS1]; · iapply owns_of_writes (h := coverA0_1); iexact HS1
        isplitl [HS2]; · iapply owns_of_writes (h := coverA0_2); iexact HS2
        isplitl [HS3]; · iapply owns_of_writes (h := coverA0_3); iexact HS3
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [scAt0_B V c t h0 h1, PhiS0_pos V c _ _ (by omega)]
      unfold rdS0; dsimp only
      iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB0 V c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hr]
      · isplitl [HS0]; · iapply owns_of_writes (h := coverB0_0); iexact HS0
        isplitl [HS1]; · iapply owns_of_writes (h := coverB0_1); iexact HS1
        isplitl [HS2]; · iapply owns_of_writes (h := coverB0_2); iexact HS2
        isplitl [HS3]; · iapply owns_of_writes (h := coverB0_3); iexact HS3
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c :=
  (PhiS0_forget V c (Fin.last cfg0.N).val (Nat.le_of_lt_succ (Fin.last cfg0.N).isLt)).trans (PhiA0_join c)

end

end Cert.Kernel.Fr

end
-- ==== Proof.Kernel.Shared1.lean ====
/-
  Region 1 of the program (the two linear heads: two K-blocked products accumulated in two scratch arrays, the bias rows added at the last K-block),
  what every case of its body shares. The grid is 8 x 8, a point t = 8*m + k: m the row block, k the K-block.
  Here: each window's block at a point as a function of the arrays the region is entered with (V); that an
  input window's current staging buffer holds that block at every point, fetched there or not; the two
  conditions of the body (k = 0: the accumulators are reset; k = 7: the outputs are stored) in closed form
  over the grid; where the output windows are idle and where they are written back; the staging and scratch
  memrefs by name; and the region invariant before the first point with the carried scratch arrays split out.
-/
import proofs.«181483_j14396730376920_1_alg».proof.Proof.Gen.Kernel.Launch
import proofs.«181483_j14396730376920_1_alg».proof.Proof.Gen.Kernel.Skeleton
import proofs.«181483_j14396730376920_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or the block index did not move since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there
    or the block index did not move since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there
    or the block index did not move since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there
    or the block index did not move since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there
    or the block index did not move since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there
    or the block index did not move since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, over the grid -/

/-- The first condition: the K-block index is 0 (the accumulators are reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the K-block index is 7 (the outputs are stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle, and where the outputs are written back -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-- Output window 6 is stored only at k = 7: idle, and not written back, at every other point. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- Output window 7 is stored only at k = 7: idle, and not written back, at every other point. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the body is called with -/
abbrev ms1_0 (t : Fin cfg1.N) : Memref sig .tc .vmem S128x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4096 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x4096 .f32 := win1_7.stage (cfg1.slots t 7)
abbrev hs1_7 (t : Fin cfg1.N) : (ms1_7 t).IsWhole := hstage1_7 ((cfg1.slots t 7).cast nbuf1_7)
/-- One staging buffer of output window 6, through which what the body leaves there is stated. -/
abbrev VO1_6 : View sig .tc .vmem S128x4096 .f32 := (Memref.whole cc1_stg6_0 : Memref sig .tc .vmem S128x4096 .f32).view
/-- One staging buffer of output window 7, through which what the body leaves there is stated. -/
abbrev VO1_7 : View sig .tc .vmem S128x4096 .f32 := (Memref.whole cc1_stg7_0 : Memref sig .tc .vmem S128x4096 .f32).view
/-- Scratch array 0: a whole scoped buffer of the kernel's own, carried from point to point. -/
abbrev scM1_0 : Memref sig .tc .vmem S128x4096 .f32 := Memref.whole cc1_scratch0
abbrev VS1_0 : View sig .tc .vmem S128x4096 .f32 := scM1_0.view
/-- Scratch array 1: a whole scoped buffer of the kernel's own, carried from point to point. -/
abbrev scM1_1 : Memref sig .tc .vmem S128x4096 .f32 := Memref.whole cc1_scratch1
abbrev VS1_1 : View sig .tc .vmem S128x4096 .f32 := scM1_1.view

/-! ## The region invariant before the first point -/

/-- The scoped buffers of the core that are neither a staging buffer of this region nor one of its scratch arrays,
    each whole at some contents: they pass through the region untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

end Cert.Kernel.Fr

end
-- ==== Proof.Kernel.Run1B.lean ====
import proofs.«181483_j14396730376920_1_alg».proof.Proof.Kernel.Shared1
import proofs.«181483_j14396730376920_1_alg».proof.Proof.LibPieces

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S128x4096 .f32) (harg11 : arg11.IsWhole) (hc0 : ¬cond1_0 i) (hc1 : ¬cond1_1 i)
    (x0 : Vec F S128x4096 .bf16) (x1 : Vec F S128x4096 .bf16) (x2 : Vec F S4096x512 .bf16) (x3 : Vec F S4096x512 .bf16) (x4 : Vec F S1x4096 .f32) (x5 : Vec F S1x4096 .f32)
    (xs0 : Vec F S128x4096 .f32) (xs1 : Vec F S128x4096 .f32) :
    Σ' (LS0 : List (View.Piece (Elt F) S128x4096 .f32)), { LS1 : List (View.Piece (Elt F) S128x4096 .f32) //
      ∀ (xi6 : Vec F S128x4096 .f32) (xi7 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc1__stage2_kernel_eq_skeleton]; unfold cc1__stage2_kernel_skel
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11]
    iintro ⟨H0, H1, H2, H3, H4, H5, H6, H7, HS0, HS1, Hk⟩
    sl_exec (disch := first | exact hc0 | exact hc1)
    sl_step
    iapply Hk
    iframe H0 H1 H2 H3 H4 H5 H6 H7
    isplitl [HS0]; · iexists _; iexact HS0
    iexists _; iexact HS1

end Cert.Kernel.Fr

end
-- ==== Proof.Kernel.Run1A.lean ====
import proofs.«181483_j14396730376920_1_alg».proof.Proof.Kernel.Run1B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S128x4096 .f32) (harg11 : arg11.IsWhole) (hc0 : cond1_0 i) (hc1 : ¬cond1_1 i)
    (x0 : Vec F S128x4096 .bf16) (x1 : Vec F S128x4096 .bf16) (x2 : Vec F S4096x512 .bf16) (x3 : Vec F S4096x512 .bf16) (x4 : Vec F S1x4096 .f32) (x5 : Vec F S1x4096 .f32) :
    Σ' (LS0 : List (View.Piece (Elt F) S128x4096 .f32)), { LS1 : List (View.Piece (Elt F) S128x4096 .f32) //
      ∀ (xi6 : Vec F S128x4096 .f32) (xi7 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc1__stage2_kernel_eq_skeleton]; unfold cc1__stage2_kernel_skel
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11]
    iintro ⟨H0, H1, H2, H3, H4, H5, H6, H7, ⟨%ds0, HS0⟩, ⟨%ds1, HS1⟩, Hk⟩
    sl_exec (disch := first | exact hc0 | exact hc1)
    sl_step
    iapply Hk
    iframe H0 H1 H2 H3 H4 H5 H6 H7
    isplitl [HS0]; · iexists _; iexact HS0
    iexists _; iexact HS1

end Cert.Kernel.Fr

end
-- ==== Proof.Kernel.Run1C.lean ====
import proofs.«181483_j14396730376920_1_alg».proof.Proof.Kernel.Run1A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

set_option maxHeartbeats 1000000 in

noncomputable def kernelRun1_C (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S128x4096 .f32) (harg11 : arg11.IsWhole) (hc0 : ¬cond1_0 i) (hc1 : cond1_1 i)
    (x0 : Vec F S128x4096 .bf16) (x1 : Vec F S128x4096 .bf16) (x2 : Vec F S4096x512 .bf16) (x3 : Vec F S4096x512 .bf16) (x4 : Vec F S1x4096 .f32) (x5 : Vec F S1x4096 .f32)
    (xs0 : Vec F S128x4096 .f32) (xs1 : Vec F S128x4096 .f32) :
    Σ' (L6 : List (View.Piece (Elt F) S128x4096 .f32)) (L7 : List (View.Piece (Elt F) S128x4096 .f32)) (LS0 : List (View.Piece (Elt F) S128x4096 .f32)), { LS1 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__stage2_kernel_eq_skeleton]; unfold cc1__stage2_kernel_skel
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11]
    iintro ⟨H0, H1, H2, H3, H4, H5, ⟨%d6, H6⟩, ⟨%d7, H7⟩, HS0, HS1, Hk⟩
    sl_exec (disch := first | exact hc0 | exact hc1)
    sl_step
    iapply Hk
    iframe H0 H1 H2 H3 H4 H5
    isplitl [H6]; · iexists _; iexact H6
    isplitl [H7]; · iexists _; iexact H7
    isplitl [HS0]; · iexists _; iexact HS0
    iexists _; iexact HS1

end Cert.Kernel.Fr

end
-- ==== Proof.Kernel.Body1.lean ====
import proofs.«181483_j14396730376920_1_alg».proof.Proof.Kernel.Run1C
import proofs.«181483_j14396730376920_1_alg».proof.Proof.LibPieces

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibPieces

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev runA1 (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _)
    ((hcond1_0 t).mpr h0) (fun h => h1 ((hcond1_1 t).mp h)) (iblk1 V c 0 t) (iblk1 V c 1 t) (iblk1 V c 2 t) (iblk1 V c 3 t) (iblk1 V c 4 t) (iblk1 V c 5 t)

abbrev runB1 (c : Dev nD) (t : Fin cfg1.N) (h0 : ¬t.val % 8 = 0) (h1 : ¬t.val % 8 = 7) (s0 s1 : Vec F S128x4096 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s0 s1

abbrev runC1 (c : Dev nD) (t : Fin cfg1.N) (h0 : ¬t.val % 8 = 0) (h1 : t.val % 8 = 7) (s0 s1 : Vec F S128x4096 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _)
    (fun h => h0 ((hcond1_0 t).mp h)) ((hcond1_1 t).mpr h1) (iblk1 V c 0 t) (iblk1 V c 1 t) (iblk1 V c 2 t) (iblk1 V c 3 t) (iblk1 V c 4 t) (iblk1 V c 5 t) s0 s1

end

def rdS (L : List (View.Piece (Elt F) S128x4096 .f32)) : Vec F S128x4096 .f32 :=
  VS1_0.read (Elt F) (VS1_0.writes (Elt F) VS1_0.junk L)

/-! The pieces every run leaves in an array tile it. -/
section
variable {c : Dev nD} {i : grid1.Coords} {arg2 : Memref sig .tc .vmem S128x4096 .bf16} {harg2 : arg2.IsWhole} {arg3 : Memref sig .tc .vmem S128x4096 .bf16} {harg3 : arg3.IsWhole} {arg4 : Memref sig .tc .vmem S4096x512 .bf16} {harg4 : arg4.IsWhole} {arg5 : Memref sig .tc .vmem S4096x512 .bf16} {harg5 : arg5.IsWhole} {arg6 : Memref sig .tc .vmem S1x4096 .f32} {harg6 : arg6.IsWhole} {arg7 : Memref sig .tc .vmem S1x4096 .f32} {harg7 : arg7.IsWhole} {arg8 : Memref sig .tc .vmem S128x4096 .f32} {harg8 : arg8.IsWhole} {arg9 : Memref sig .tc .vmem S128x4096 .f32} {harg9 : arg9.IsWhole} {arg10 : Memref sig .tc .vmem S128x4096 .f32} {harg10 : arg10.IsWhole} {arg11 : Memref sig .tc .vmem S128x4096 .f32} {harg11 : arg11.IsWhole}

section
variable {hc0 : cond1_0 i} {hc1 : ¬cond1_1 i} {x0 x1 : Vec F S128x4096 .bf16} {x2 x3 : Vec F S4096x512 .bf16} {x4 x5 : Vec F S1x4096 .f32}
theorem coverA1_0 : Covers (kernelRun1_A (F := F) c i arg2 harg2 arg3 harg3 arg4 harg4 arg5 harg5 arg6 harg6 arg7 harg7 arg8 harg8 arg9 harg9 arg10 harg10 arg11 harg11 hc0 hc1 x0 x1 x2 x3 x4 x5).1 := View.cover_of_tiledL _ S128x4096.size (by sl_kernel_rfl)
theorem coverA1_1 : Covers (kernelRun1_A (F := F) c i arg2 harg2 arg3 harg3 arg4 harg4 arg5 harg5 arg6 harg6 arg7 harg7 arg8 harg8 arg9 harg9 arg10 harg10 arg11 harg11 hc0 hc1 x0 x1 x2 x3 x4 x5).2.1 := View.cover_of_tiledL _ S128x4096.size (by sl_kernel_rfl)
end

section
variable {hc0 : ¬cond1_0 i} {hc1 : ¬cond1_1 i} {x0 x1 : Vec F S128x4096 .bf16} {x2 x3 : Vec F S4096x512 .bf16} {x4 x5 : Vec F S1x4096 .f32} {xs0 xs1 : Vec F S128x4096 .f32}
theorem coverB1_0 : Covers (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).1 := View.cover_of_tiledL _ S128x4096.size (by sl_kernel_rfl)
theorem coverB1_1 : Covers (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 := View.cover_of_tiledL _ S128x4096.size (by sl_kernel_rfl)
end

section
variable {hc0 : ¬cond1_0 i} {hc1 : cond1_1 i} {x0 x1 : Vec F S128x4096 .bf16} {x2 x3 : Vec F S4096x512 .bf16} {x4 x5 : Vec F S1x4096 .f32} {xs0 xs1 : Vec F S128x4096 .f32}
theorem coverC1_6 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1 := View.cover_of_tiledL _ S128x4096.size (by sl_kernel_rfl)
theorem coverC1_7 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 := View.cover_of_tiledL _ S128x4096.size (by sl_kernel_rfl)
theorem coverC1_S0 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 := View.cover_of_tiledL _ S128x4096.size (by sl_kernel_rfl)
theorem coverC1_S1 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 := View.cover_of_tiledL _ S128x4096.size (by sl_kernel_rfl)
end

end

section
variable (V : (c : Dev nD) → (b : Ref sig .tc) → Buf (Elt F) ((c : Thread nD τ).loc b))

/-- What the scratch arrays hold after the body at position `n`: the first K-block's run over anything, every later run over what position `n - 1` left. -/
def scAt1 (c : Dev nD) : (n : ℕ) → n < cfg1.N → Vec F S128x4096 .f32 × Vec F S128x4096 .f32
  | 0, hn => (rdS (runA1 V c ⟨0, hn⟩ (Nat.zero_mod _) (show ¬(0 % 8 = 7) by decide)).1,
      rdS (runA1 V c ⟨0, hn⟩ (Nat.zero_mod _) (show ¬(0 % 8 = 7) by decide)).2.1)
  | n + 1, hn =>
    if h0 : (n + 1) % 8 = 0 then
      (rdS (runA1 V c ⟨n + 1, hn⟩ h0 (show ¬((n + 1) % 8 = 7) by omega)).1,
      rdS (runA1 V c ⟨n + 1, hn⟩ h0 (show ¬((n + 1) % 8 = 7) by omega)).2.1)
    else
      if h1 : (n + 1) % 8 = 7 then
        (rdS (runC1 V c ⟨n + 1, hn⟩ h0 h1 (scAt1 c n (Nat.lt_of_succ_lt hn)).1 (scAt1 c n (Nat.lt_of_succ_lt hn)).2).2.2.1,
      rdS (runC1 V c ⟨n + 1, hn⟩ h0 h1 (scAt1 c n (Nat.lt_of_succ_lt hn)).1 (scAt1 c n (Nat.lt_of_succ_lt hn)).2).2.2.2.1)
      else
        (rdS (runB1 V c ⟨n + 1, hn⟩ h0 h1 (scAt1 c n (Nat.lt_of_succ_lt hn)).1 (scAt1 c n (Nat.lt_of_succ_lt hn)).2).1,
      rdS (runB1 V c ⟨n + 1, hn⟩ h0 h1 (scAt1 c n (Nat.lt_of_succ_lt hn)).1 (scAt1 c n (Nat.lt_of_succ_lt hn)).2).2.1)

theorem pred_lt1 (t : Fin cfg1.N) : t.val - 1 < cfg1.N := Nat.lt_of_le_of_lt (Nat.sub_le _ _) t.isLt

theorem scAt1_A (c : Dev nD) (t : Fin cfg1.N) (h0 : t.val % 8 = 0) (h1 : ¬t.val % 8 = 7) :
    scAt1 V c t.val t.isLt = (rdS (runA1 V c t h0 h1).1,
      rdS (runA1 V c t h0 h1).2.1) := by
  obtain ⟨n, hn⟩ := t
  cases n with
  | zero => exact rfl
  | succ n => exact (dif_pos h0).trans rfl

theorem scAt1_B (c : Dev nD) (t : Fin cfg1.N) (h0 : ¬t.val % 8 = 0) (h1 : ¬t.val % 8 = 7) :
    scAt1 V c t.val t.isLt = (rdS (runB1 V c t h0 h1 (scAt1 V c (t.val - 1) (pred_lt1 t)).1 (scAt1 V c (t.val - 1) (pred_lt1 t)).2).1,
      rdS (runB1 V c t h0 h1 (scAt1 V c (t.val - 1) (pred_lt1 t)).1 (scAt1 V c (t.val - 1) (pred_lt1 t)).2).2.1) := by
  obtain ⟨n, hn⟩ := t
  cases n with
  | zero => exact absurd (Nat.zero_mod _) h0
  | succ n => exact (dif_neg h0).trans ((dif_neg h1).trans rfl)

theorem scAt1_C (c : Dev nD) (t : Fin cfg1.N) (h0 : ¬t.val % 8 = 0) (h1 : t.val % 8 = 7) :
    scAt1 V c t.val t.isLt = (rdS (runC1 V c t h0 h1 (scAt1 V c (t.val - 1) (pred_lt1 t)).1 (scAt1 V c (t.val - 1) (pred_lt1 t)).2).2.2.1,
      rdS (runC1 V c t h0 h1 (scAt1 V c (t.val - 1) (pred_lt1 t)).1 (scAt1 V c (t.val - 1) (pred_lt1 t)).2).2.2.2.1) := by
  obtain ⟨n, hn⟩ := t
  cases n with
  | zero => exact absurd (Nat.zero_mod _) h0
  | succ n => exact (dif_neg h0).trans ((dif_pos h1).trans rfl)

/-- An output's block after point `t`: what the last K-block's run stored. -/
def outAt1_6 (c : Dev nD) (t : Fin cfg1.N) : Vec F S128x4096 .f32 :=
  if h1 : t.val % 8 = 7 then
    rdS (runC1 V c t (show ¬(t.val % 8 = 0) by omega) h1 (scAt1 V c (t.val - 1) (pred_lt1 t)).1 (scAt1 V c (t.val - 1) (pred_lt1 t)).2).1
  else VO1_6.read (Elt F) VO1_6.junk
def outAt1_7 (c : Dev nD) (t : Fin cfg1.N) : Vec F S128x4096 .f32 :=
  if h1 : t.val % 8 = 7 then
    rdS (runC1 V c t (show ¬(t.val % 8 = 0) by omega) h1 (scAt1 V c (t.val - 1) (pred_lt1 t)).1 (scAt1 V c (t.val - 1) (pred_lt1 t)).2).2.1
  else VO1_7.read (Elt F) VO1_7.junk

theorem outAt1_6_C (c : Dev nD) (t : Fin cfg1.N) (h0 : ¬t.val % 8 = 0) (h1 : t.val % 8 = 7) :
    outAt1_6 V c t = rdS (runC1 V c t h0 h1 (scAt1 V c (t.val - 1) (pred_lt1 t)).1 (scAt1 V c (t.val - 1) (pred_lt1 t)).2).1 := by
  unfold outAt1_6; rw [dif_pos h1]
theorem outAt1_7_C (c : Dev nD) (t : Fin cfg1.N) (h0 : ¬t.val % 8 = 0) (h1 : t.val % 8 = 7) :
    outAt1_7 V c t = rdS (runC1 V c t h0 h1 (scAt1 V c (t.val - 1) (pred_lt1 t)).1 (scAt1 V c (t.val - 1) (pred_lt1 t)).2).2.1 := by
  unfold outAt1_7; rw [dif_pos h1]

theorem PhiA1_split (c : Dev nD) : (Pipeline.ΦA spec1 c : sProp 𝕄) ⊢ iprop((∃ d, owns (c : Thread nD τ) scM1_0 fullShare d) ∗ (∃ d, owns (c : Thread nD τ) scM1_1 fullShare d) ∗ other1 c ∗ (∃ r, prngReg c r)) := by
  unfold Pipeline.ΦA other1; rw [scopedRest1_eq]; simp only [scM1_0, scM1_1, owns_whole]
  iintro ⟨⟨H0, H1, H2, H3, H4, H5, H6, H7, H8, H9, H10, H11, H12, H13, H14, H15, H16, H17, HS0, HS1⟩, Hg⟩
  isplitl [HS0]; · iexact HS0
  isplitl [HS1]; · iexact HS1
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem PhiA1_join (c : Dev nD) : iprop((∃ d, owns (c : Thread nD τ) scM1_0 fullShare d) ∗ (∃ d, owns (c : Thread nD τ) scM1_1 fullShare d) ∗ other1 c ∗ (∃ r, prngReg c r)) ⊢ (Pipeline.ΦA spec1 c : sProp 𝕄) := by
  unfold Pipeline.ΦA other1; rw [scopedRest1_eq]; simp only [scM1_0, scM1_1, owns_whole]
  iintro ⟨HS0, HS1, ⟨H0, H1, H2, H3, H4, H5, H6, H7, H8, H9, H10, H11, H12, H13, H14, H15, H16, H17⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  iexact HS1

/-- The invariant carried from point to point: the scratch arrays at what the point before left. -/
def PhiS1 (c : Dev nD) : (n : ℕ) → n ≤ cfg1.N → sProp 𝕄
  | 0, _ => Pipeline.ΦA spec1 c
  | n + 1, hn => iprop(owns (c : Thread nD τ) scM1_0 fullShare (scAt1 V c n hn).1 ∗ owns (c : Thread nD τ) scM1_1 fullShare (scAt1 V c n hn).2 ∗ other1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (scAt1 V c n hn).1 ∗ owns (c : Thread nD τ) scM1_1 fullShare (scAt1 V c n hn).2 ∗ other1 c ∗ (∃ r, prngReg c r)) := rfl
theorem PhiS1_pos (c : Dev nD) (n : ℕ) (h : n ≤ cfg1.N) (hz : n ≠ 0) :
    PhiS1 V c n h = iprop(owns (c : Thread nD τ) scM1_0 fullShare (scAt1 V c (n - 1) (by omega)).1 ∗ owns (c : Thread nD τ) scM1_1 fullShare (scAt1 V c (n - 1) (by omega)).2 ∗ other1 c ∗ (∃ r, prngReg c r)) := by
  cases n with
  | zero => exact absurd rfl hz
  | succ n => rfl

/-- At any position the invariant yields the scratch arrays at some contents. -/
theorem PhiS1_forget (c : Dev nD) (n : ℕ) (h : n ≤ cfg1.N) :
    PhiS1 V c n h ⊢ iprop((∃ d, owns (c : Thread nD τ) scM1_0 fullShare d) ∗ (∃ d, owns (c : Thread nD τ) scM1_1 fullShare d) ∗ other1 c ∗ (∃ r, prngReg c r)) := by
  cases n with
  | zero => exact PhiA1_split c
  | succ n =>
    rw [PhiS1_succ]
    iintro ⟨HS0, HS1, Hr⟩
    isplitl [HS0]; · iexists _; iexact HS0
    isplitl [HS1]; · iexists _; iexact HS1
    iexact Hr

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1_6 V c t
    | ⟨7, _⟩ => outAt1_7 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1_6 V c t := by dsimp only [dat1]
theorem after1_7 (c : Dev nD) (t : Fin cfg1.N) : (dat1 V c).after 7 t = outAt1_7 V c t := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the K-block index picks the run; the invariant lends the run the scratch arrays and takes them back at the pieces it wrote, which cover them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 64 := lt_of_lt_of_eq t.isLt (show cfg1.N = 64 from N_1)
  by_cases h1 : t.val % 8 = 7
  · have h0 : ¬t.val % 8 = 0 := by omega
    rw [show (dat1 V c).leavesExact 6 t = owns (c : Thread nD τ) (ms1_6 t) fullShare ((dat1 V c).after 6 t) from by
      unfold Dat.leavesExact; rw [liveAt1_6 t ((hcond1_1 t).mpr h1)], after1_6]
    rw [show (dat1 V c).leavesExact 7 t = owns (c : Thread nD τ) (ms1_7 t) fullShare ((dat1 V c).after 7 t) from by
      unfold Dat.leavesExact; rw [liveAt1_7 t ((hcond1_1 t).mpr h1)], after1_7]
    rw [scAt1_C V c t h0 h1, outAt1_6_C V c t h0 h1, outAt1_7_C V c t h0 h1, PhiS1_pos V c _ _ (by omega)]
    unfold rdS; dsimp only
    iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC1 V c t h0 h1 _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr]
    · isplitl [HS0]; · iapply owns_of_writes (h := coverC1_S0); iexact HS0
      isplitl [HS1]; · iapply owns_of_writes (h := coverC1_S1); iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply owns_of_writes (h := coverC1_6); iexact H6
    iapply owns_of_writes (h := coverC1_7); iexact H7
  · rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    by_cases h0 : t.val % 8 = 0
    · rw [scAt1_A V c t h0 h1]
      unfold rdS; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := PhiS1_forget V c _ _ $$ HΦ
      icases HΦ' with ⟨HS0, HS1, Hr⟩
      iapply ((runA1 V c t h0 h1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr]
      · isplitl [HS0]; · iapply owns_of_writes (h := coverA1_0); iexact HS0
        isplitl [HS1]; · iapply owns_of_writes (h := coverA1_1); iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [scAt1_B V c t h0 h1, PhiS1_pos V c _ _ (by omega)]
      unfold rdS; dsimp only
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB1 V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr]
      · isplitl [HS0]; · iapply owns_of_writes (h := coverB1_0); iexact HS0
        isplitl [HS1]; · iapply owns_of_writes (h := coverB1_1); iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c :=
  (PhiS1_forget V c (Fin.last cfg1.N).val (Nat.le_of_lt_succ (Fin.last cfg1.N).isLt)).trans (PhiA1_join c)

end

end Cert.Kernel.Fr

end
-- ==== Proof.Kernel.Launch.lean ====
import proofs.«181483_j14396730376920_1_alg».proof.Proof.Kernel.Body0
import proofs.«181483_j14396730376920_1_alg».proof.Proof.Kernel.Body1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide), List.mem_map_of_mem (by decide),
    List.mem_map_of_mem (by decide), List.mem_map_of_mem (by decide), List.mem_map_of_mem (by decide)⟩

theorem W1_of (c : Dev nD) (r : Ref sig .tc) (h : r ∉ hostOps0_W) : W1 m c (Proc.devRef .tc r) = W0 m c (Proc.devRef .tc r) :=
  StableHlo.after_of_writes_sub hostOps0 _ hostOps0_writes h

/-- A buffer no region writes and no host operation writes ends as launched. -/
theorem W3_keep (c : Dev nD) (r : Ref sig .tc) (h1 : ∀ w, Pipeline.arrRef spec1 w ≠ r) (hh : r ∉ hostOps0_W)
    (h2 : W2 m c (Proc.devRef .tc r) = W1 m c (Proc.devRef .tc r)) : W3 m c (Proc.devRef .tc r) = m ((c : Thread nD τ).loc r) :=
  (W3_of_ne m c r h1).trans (h2.trans (W1_of m c r hh))
/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W3_main_arg0 (c : Dev nD) : W3 m c (Proc.devRef .tc main_arg0) = m ((c : Thread nD τ).loc main_arg0) :=
  W3_keep m c main_arg0 (by decide) (by decide) (W2_in m c 0 rfl)
theorem W3_main_arg1 (c : Dev nD) : W3 m c (Proc.devRef .tc main_arg1) = m ((c : Thread nD τ).loc main_arg1) :=
  W3_keep m c main_arg1 (by decide) (by decide) (W2_in m c 1 rfl)
theorem W3_main_arg2 (c : Dev nD) : W3 m c (Proc.devRef .tc main_arg2) = m ((c : Thread nD τ).loc main_arg2) :=
  W3_keep m c main_arg2 (by decide) (by decide) (W2_of_ne m c main_arg2 (by decide))
theorem W3_main_arg3 (c : Dev nD) : W3 m c (Proc.devRef .tc main_arg3) = m ((c : Thread nD τ).loc main_arg3) :=
  W3_keep m c main_arg3 (by decide) (by decide) (W2_of_ne m c main_arg3 (by decide))
theorem W3_main_arg4 (c : Dev nD) : W3 m c (Proc.devRef .tc main_arg4) = m ((c : Thread nD τ).loc main_arg4) :=
  W3_keep m c main_arg4 (by decide) (by decide) (W2_in m c 4 rfl)
theorem W3_main_arg5 (c : Dev nD) : W3 m c (Proc.devRef .tc main_arg5) = m ((c : Thread nD τ).loc main_arg5) :=
  W3_keep m c main_arg5 (by decide) (by decide) (W2_in m c 5 rfl)
theorem W3_main_arg6 (c : Dev nD) : W3 m c (Proc.devRef .tc main_arg6) = m ((c : Thread nD τ).loc main_arg6) :=
  W3_keep m c main_arg6 (by decide) (by decide) (W2_of_ne m c main_arg6 (by decide))
theorem W3_main_arg7 (c : Dev nD) : W3 m c (Proc.devRef .tc main_arg7) = m ((c : Thread nD τ).loc main_arg7) :=
  W3_keep m c main_arg7 (by decide) (by decide) (W2_of_ne m c main_arg7 (by decide))
theorem W3_main_arg8 (c : Dev nD) : W3 m c (Proc.devRef .tc main_arg8) = m ((c : Thread nD τ).loc main_arg8) :=
  W3_keep m c main_arg8 (by decide) (by decide) (W2_of_ne m c main_arg8 (by decide))
theorem W3_main_arg9 (c : Dev nD) : W3 m c (Proc.devRef .tc main_arg9) = m ((c : Thread nD τ).loc main_arg9) :=
  W3_keep m c main_arg9 (by decide) (by decide) (W2_of_ne m c main_arg9 (by decide))

theorem W3_main_v7_0 (c : Dev nD) : W3 m c (Proc.devRef .tc main_v7_0) = (dat1 (V2 m) c).arrAt 6 cfg1.N := W3_arr m c 6
theorem W3_main_v7_1 (c : Dev nD) : W3 m c (Proc.devRef .tc main_v7_1) = (dat1 (V2 m) c).arrAt 7 cfg1.N := W3_arr m c 7

theorem V2_main_v6_0 (c : Dev nD) : V2 m c main_v6_0 = (dat0 (V1 m) c).arrAt 6 cfg0.N := W2_arr m c 6
theorem V2_main_v6_1 (c : Dev nD) : V2 m c main_v6_1 = (dat0 (V1 m) c).arrAt 7 cfg0.N := W2_arr m c 7

theorem V2_main_v2 (c : Dev nD) : V2 m c main_v2 = V1 m c main_v2 := W2_of_ne m c main_v2 (by decide)
theorem V2_main_v3 (c : Dev nD) : V2 m c main_v3 = V1 m c main_v3 := W2_of_ne m c main_v3 (by decide)
theorem V2_main_v4 (c : Dev nD) : V2 m c main_v4 = V1 m c main_v4 := W2_of_ne m c main_v4 (by decide)
theorem V2_main_v5 (c : Dev nD) : V2 m c main_v5 = V1 m c main_v5 := W2_of_ne m c main_v5 (by decide)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) from by
      unfold Pipeline.ΦA
      iintro ⟨Hp, -, Hr⟩
      isplitl [Hr]; · iexact Hr
      iexact Hp).trans (hin0 (V1 m) c)
  hout c :=
    (hout0 (V1 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (V2 m) c)
  hout c :=
    (hout1 (V2 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

theorem results : θ_run defs (onTc (τ := τ) (main (F := F))) ⟨m, fun _ => 0, ρ⟩ (fun r => ∀ c : Dev nD,
      r.2.mem ((c.tc : Thread nD τ).loc main_v7_0) = (dat1 (V2 m) c).arrAt 6 cfg1.N
      ∧ r.2.mem ((c.tc : Thread nD τ).loc main_v7_1) = (dat1 (V2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v7_0 (by decide))).trans (W3_main_v7_0 m c),
     (h c _ (mem_uc main_v7_1 (by decide))).trans (W3_main_v7_1 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c)⟩) (run_all m ρ)

end Cert.Kernel.Fr

end
-- ==== Proof.KernelIdeal.Shared0.lean ====
/-
  Region 0 of the program (the bilinear stage: four K-blocked products accumulated in four scratch arrays, combined at the last K-block),
  what every case of its body shares. The grid is 8 x 8, a point t = 8*m + k: m the row block, k the K-block.
  Here: each window's block at a point as a function of the arrays the region is entered with (V); that an
  input window's current staging buffer holds that block at every point, fetched there or not; the two
  conditions of the body (k = 0: the accumulators are reset; k = 7: the outputs are stored) in closed form
  over the grid; where the output windows are idle and where they are written back; the staging and scratch
  memrefs by name; and the region invariant before the first point with the carried scratch arrays split out.
-/
import proofs.«181483_j14396730376920_1_alg».proof.Proof.Gen.KernelIdeal.Launch
import proofs.«181483_j14396730376920_1_alg».proof.Proof.Gen.KernelIdeal.Skeleton
import proofs.«181483_j14396730376920_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or the block index did not move since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or the block index did not move since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or the block index did not move since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or the block index did not move since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or the block index did not move since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or the block index did not move since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, over the grid -/

/-- The first condition: the K-block index is 0 (the accumulators are reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second condition: the K-block index is 7 (the outputs are stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle, and where the outputs are written back -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- Output window 6 is stored only at k = 7: idle, and not written back, at every other point. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- Output window 7 is stored only at k = 7: idle, and not written back, at every other point. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/
abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .bf16 := win0_7.stage (cfg0.slots t 7)
abbrev hs0_7 (t : Fin cfg0.N) : (ms0_7 t).IsWhole := hstage0_7 ((cfg0.slots t 7).cast nbuf0_7)
/-- One staging buffer of output window 6, through which what the body leaves there is stated. -/
abbrev VO0_6 : View sig .tc .vmem S128x4096 .bf16 := (Memref.whole cc0_stg6_0 : Memref sig .tc .vmem S128x4096 .bf16).view
/-- One staging buffer of output window 7, through which what the body leaves there is stated. -/
abbrev VO0_7 : View sig .tc .vmem S128x4096 .bf16 := (Memref.whole cc0_stg7_0 : Memref sig .tc .vmem S128x4096 .bf16).view
/-- Scratch array 0: a whole scoped buffer of the kernel's own, carried from point to point. -/
abbrev scM0_0 : Memref sig .tc .vmem S128x4096 .f32 := Memref.whole cc0_scratch0
abbrev VS0_0 : View sig .tc .vmem S128x4096 .f32 := scM0_0.view
/-- Scratch array 1: a whole scoped buffer of the kernel's own, carried from point to point. -/
abbrev scM0_1 : Memref sig .tc .vmem S128x4096 .f32 := Memref.whole cc0_scratch1
abbrev VS0_1 : View sig .tc .vmem S128x4096 .f32 := scM0_1.view
/-- Scratch array 2: a whole scoped buffer of the kernel's own, carried from point to point. -/
abbrev scM0_2 : Memref sig .tc .vmem S128x4096 .f32 := Memref.whole cc0_scratch2
abbrev VS0_2 : View sig .tc .vmem S128x4096 .f32 := scM0_2.view
/-- Scratch array 3: a whole scoped buffer of the kernel's own, carried from point to point. -/
abbrev scM0_3 : Memref sig .tc .vmem S128x4096 .f32 := Memref.whole cc0_scratch3
abbrev VS0_3 : View sig .tc .vmem S128x4096 .f32 := scM0_3.view

/-! ## The region invariant before the first point -/

/-- The scoped buffers of the core that are neither a staging buffer of this region nor one of its scratch arrays,
    each whole at some contents: they pass through the region untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

end Cert.KernelIdeal.Fr

end
-- ==== Proof.KernelIdeal.Run0B.lean ====
import proofs.«181483_j14396730376920_1_alg».proof.Proof.KernelIdeal.Shared0
import proofs.«181483_j14396730376920_1_alg».proof.Proof.LibPieces

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

set_option maxHeartbeats 2000000 in

noncomputable def kernelRun0_B (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .bf16) (harg8 : arg8.IsWhole) (arg9 : Memref sig .tc .vmem S128x4096 .bf16) (harg9 : arg9.IsWhole) (arg10 : Memref sig .tc .vmem S128x4096 .f32) (harg10 : arg10.IsWhole) (arg11 : Memref sig .tc .vmem S128x4096 .f32) (harg11 : arg11.IsWhole) (arg12 : Memref sig .tc .vmem S128x4096 .f32) (harg12 : arg12.IsWhole) (arg13 : Memref sig .tc .vmem S128x4096 .f32) (harg13 : arg13.IsWhole) (hc0 : ¬cond0_0 i) (hc1 : ¬cond0_1 i)
    (x0 : Vec F S128x4096 .f32) (x1 : Vec F S128x4096 .f32) (x2 : Vec F S4096x512 .bf16) (x3 : Vec F S4096x512 .bf16) (x4 : Vec F S1x4096 .f32) (x5 : Vec F S1x4096 .f32)
    (xs0 : Vec F S128x4096 .f32) (xs1 : Vec F S128x4096 .f32) (xs2 : Vec F S128x4096 .f32) (xs3 : Vec F S128x4096 .f32) :
    Σ' (LS0 : List (View.Piece (Elt F) S128x4096 .f32)) (LS1 : List (View.Piece (Elt F) S128x4096 .f32)) (LS2 : List (View.Piece (Elt F) S128x4096 .f32)), { LS3 : List (View.Piece (Elt F) S128x4096 .f32) //
      ∀ (xi6 : Vec F S128x4096 .bf16) (xi7 : Vec F S128x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ (∃ f, arg13.view.loc (c : Thread nD τ) ↦[arg13.view.set]{fullShare} arg13.view.writes (Elt F) f LS3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__stage1_kernel_eq_skeleton]; unfold cc0__stage1_kernel_skel
    simp only [k0_part1_eq_skeleton]
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11, owns_eq_unread (c : Thread nD τ) harg12, owns_eq_unread (c : Thread nD τ) harg13]
    iintro ⟨H0, H1, H2, H3, H4, H5, H6, H7, HS0, HS1, HS2, HS3, Hk⟩
    sl_exec (disch := first | exact hc0 | exact hc1)
    sl_step
    iapply Hk
    iframe H0 H1 H2 H3 H4 H5 H6 H7
    isplitl [HS0]; · iexists _; iexact HS0
    isplitl [HS1]; · iexists _; iexact HS1
    isplitl [HS2]; · iexists _; iexact HS2
    iexists _; iexact HS3

end Cert.KernelIdeal.Fr

end
-- ==== Proof.KernelIdeal.Run0A.lean ====
import proofs.«181483_j14396730376920_1_alg».proof.Proof.KernelIdeal.Run0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

set_option maxHeartbeats 2000000 in

noncomputable def kernelRun0_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .bf16) (harg8 : arg8.IsWhole) (arg9 : Memref sig .tc .vmem S128x4096 .bf16) (harg9 : arg9.IsWhole) (arg10 : Memref sig .tc .vmem S128x4096 .f32) (harg10 : arg10.IsWhole) (arg11 : Memref sig .tc .vmem S128x4096 .f32) (harg11 : arg11.IsWhole) (arg12 : Memref sig .tc .vmem S128x4096 .f32) (harg12 : arg12.IsWhole) (arg13 : Memref sig .tc .vmem S128x4096 .f32) (harg13 : arg13.IsWhole) (hc0 : cond0_0 i) (hc1 : ¬cond0_1 i)
    (x0 : Vec F S128x4096 .f32) (x1 : Vec F S128x4096 .f32) (x2 : Vec F S4096x512 .bf16) (x3 : Vec F S4096x512 .bf16) (x4 : Vec F S1x4096 .f32) (x5 : Vec F S1x4096 .f32) :
    Σ' (LS0 : List (View.Piece (Elt F) S128x4096 .f32)) (LS1 : List (View.Piece (Elt F) S128x4096 .f32)) (LS2 : List (View.Piece (Elt F) S128x4096 .f32)), { LS3 : List (View.Piece (Elt F) S128x4096 .f32) //
      ∀ (xi6 : Vec F S128x4096 .bf16) (xi7 : Vec F S128x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ (∃ f, arg13.view.loc (c : Thread nD τ) ↦[arg13.view.set]{fullShare} arg13.view.writes (Elt F) f LS3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__stage1_kernel_eq_skeleton]; unfold cc0__stage1_kernel_skel
    simp only [k0_part1_eq_skeleton]
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11, owns_eq_unread (c : Thread nD τ) harg12, owns_eq_unread (c : Thread nD τ) harg13]
    iintro ⟨H0, H1, H2, H3, H4, H5, H6, H7, ⟨%ds0, HS0⟩, ⟨%ds1, HS1⟩, ⟨%ds2, HS2⟩, ⟨%ds3, HS3⟩, Hk⟩
    sl_exec (disch := first | exact hc0 | exact hc1)
    sl_step
    iapply Hk
    iframe H0 H1 H2 H3 H4 H5 H6 H7
    isplitl [HS0]; · iexists _; iexact HS0
    isplitl [HS1]; · iexists _; iexact HS1
    isplitl [HS2]; · iexists _; iexact HS2
    iexists _; iexact HS3

end Cert.KernelIdeal.Fr

end
-- ==== Proof.KernelIdeal.Run0C.lean ====
import proofs.«181483_j14396730376920_1_alg».proof.Proof.KernelIdeal.Run0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

set_option maxHeartbeats 2000000 in

noncomputable def kernelRun0_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .bf16) (harg8 : arg8.IsWhole) (arg9 : Memref sig .tc .vmem S128x4096 .bf16) (harg9 : arg9.IsWhole) (arg10 : Memref sig .tc .vmem S128x4096 .f32) (harg10 : arg10.IsWhole) (arg11 : Memref sig .tc .vmem S128x4096 .f32) (harg11 : arg11.IsWhole) (arg12 : Memref sig .tc .vmem S128x4096 .f32) (harg12 : arg12.IsWhole) (arg13 : Memref sig .tc .vmem S128x4096 .f32) (harg13 : arg13.IsWhole) (hc0 : ¬cond0_0 i) (hc1 : cond0_1 i)
    (x0 : Vec F S128x4096 .f32) (x1 : Vec F S128x4096 .f32) (x2 : Vec F S4096x512 .bf16) (x3 : Vec F S4096x512 .bf16) (x4 : Vec F S1x4096 .f32) (x5 : Vec F S1x4096 .f32)
    (xs0 : Vec F S128x4096 .f32) (xs1 : Vec F S128x4096 .f32) (xs2 : Vec F S128x4096 .f32) (xs3 : Vec F S128x4096 .f32) :
    Σ' (L6 : List (View.Piece (Elt F) S128x4096 .bf16)) (L7 : List (View.Piece (Elt F) S128x4096 .bf16)) (LS0 : List (View.Piece (Elt F) S128x4096 .f32)) (LS1 : List (View.Piece (Elt F) S128x4096 .f32)) (LS2 : List (View.Piece (Elt F) S128x4096 .f32)), { LS3 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)
                ∗ (∃ f, arg13.view.loc (c : Thread nD τ) ↦[arg13.view.set]{fullShare} arg13.view.writes (Elt F) f LS3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__stage1_kernel_eq_skeleton]; unfold cc0__stage1_kernel_skel
    simp only [k0_part1_eq_skeleton]
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11, owns_eq_unread (c : Thread nD τ) harg12, owns_eq_unread (c : Thread nD τ) harg13]
    iintro ⟨H0, H1, H2, H3, H4, H5, ⟨%d6, H6⟩, ⟨%d7, H7⟩, HS0, HS1, HS2, HS3, Hk⟩
    sl_exec (disch := first | exact hc0 | exact hc1)
    sl_step
    iapply Hk
    iframe H0 H1 H2 H3 H4 H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Fr

end
-- ==== Proof.KernelIdeal.Body0.lean ====
import proofs.«181483_j14396730376920_1_alg».proof.Proof.KernelIdeal.Run0C
import proofs.«181483_j14396730376920_1_alg».proof.Proof.LibPieces

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev runA0 (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    ((hcond0_0 t).mpr h0) (fun h => h1 ((hcond0_1 t).mp h)) (iblk0 V c 0 t) (iblk0 V c 1 t) (iblk0 V c 2 t) (iblk0 V c 3 t) (iblk0 V c 4 t) (iblk0 V c 5 t)

abbrev runB0 (c : Dev nD) (t : Fin cfg0.N) (h0 : ¬t.val % 8 = 0) (h1 : ¬t.val % 8 = 7) (s0 s1 s2 s3 : Vec F S128x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) s0 s1 s2 s3

abbrev runC0 (c : Dev nD) (t : Fin cfg0.N) (h0 : ¬t.val % 8 = 0) (h1 : t.val % 8 = 7) (s0 s1 s2 s3 : Vec F S128x4096 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) s0 s1 s2 s3

end

def rdS0 (L : List (View.Piece (Elt F) S128x4096 .f32)) : Vec F S128x4096 .f32 :=
  VS0_0.read (Elt F) (VS0_0.writes (Elt F) VS0_0.junk L)

def rdO0 (L : List (View.Piece (Elt F) S128x4096 .bf16)) : Vec F S128x4096 .bf16 :=
  VO0_6.read (Elt F) (VO0_6.writes (Elt F) VO0_6.junk L)

/-! The pieces every run leaves in an array tile it. -/
section
variable {c : Dev nD} {i : grid0.Coords} {arg2 : Memref sig .tc .vmem S128x4096 .f32} {harg2 : arg2.IsWhole} {arg3 : Memref sig .tc .vmem S128x4096 .f32} {harg3 : arg3.IsWhole} {arg4 : Memref sig .tc .vmem S4096x512 .bf16} {harg4 : arg4.IsWhole} {arg5 : Memref sig .tc .vmem S4096x512 .bf16} {harg5 : arg5.IsWhole} {arg6 : Memref sig .tc .vmem S1x4096 .f32} {harg6 : arg6.IsWhole} {arg7 : Memref sig .tc .vmem S1x4096 .f32} {harg7 : arg7.IsWhole} {arg8 : Memref sig .tc .vmem S128x4096 .bf16} {harg8 : arg8.IsWhole} {arg9 : Memref sig .tc .vmem S128x4096 .bf16} {harg9 : arg9.IsWhole} {arg10 : Memref sig .tc .vmem S128x4096 .f32} {harg10 : arg10.IsWhole} {arg11 : Memref sig .tc .vmem S128x4096 .f32} {harg11 : arg11.IsWhole} {arg12 : Memref sig .tc .vmem S128x4096 .f32} {harg12 : arg12.IsWhole} {arg13 : Memref sig .tc .vmem S128x4096 .f32} {harg13 : arg13.IsWhole}

section
variable {hc0 : cond0_0 i} {hc1 : ¬cond0_1 i} {x0 x1 : Vec F S128x4096 .f32} {x2 x3 : Vec F S4096x512 .bf16} {x4 x5 : Vec F S1x4096 .f32}
theorem coverA0_0 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1 := View.cover_of_tiledL _ S128x4096.size (by sl_kernel_rfl)
theorem coverA0_1 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 := View.cover_of_tiledL _ S128x4096.size (by sl_kernel_rfl)
theorem coverA0_2 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 := View.cover_of_tiledL _ S128x4096.size (by sl_kernel_rfl)
theorem coverA0_3 : Covers (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 := View.cover_of_tiledL _ S128x4096.size (by sl_kernel_rfl)
end

section
variable {hc0 : ¬cond0_0 i} {hc1 : ¬cond0_1 i} {x0 x1 : Vec F S128x4096 .f32} {x2 x3 : Vec F S4096x512 .bf16} {x4 x5 : Vec F S1x4096 .f32} {xs0 xs1 xs2 xs3 : Vec F S128x4096 .f32}
theorem coverB0_0 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 := View.cover_of_tiledL _ S128x4096.size (by sl_kernel_rfl)
theorem coverB0_1 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 := View.cover_of_tiledL _ S128x4096.size (by sl_kernel_rfl)
theorem coverB0_2 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 := View.cover_of_tiledL _ S128x4096.size (by sl_kernel_rfl)
theorem coverB0_3 : Covers (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 := View.cover_of_tiledL _ S128x4096.size (by sl_kernel_rfl)
end

section
variable {hc0 : ¬cond0_0 i} {hc1 : cond0_1 i} {x0 x1 : Vec F S128x4096 .f32} {x2 x3 : Vec F S4096x512 .bf16} {x4 x5 : Vec F S1x4096 .f32} {xs0 xs1 xs2 xs3 : Vec F S128x4096 .f32}
theorem coverC0_6 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 := View.cover_of_tiledL _ S128x4096.size (by sl_kernel_rfl)
theorem coverC0_7 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 := View.cover_of_tiledL _ S128x4096.size (by sl_kernel_rfl)
theorem coverC0_S0 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 := View.cover_of_tiledL _ S128x4096.size (by sl_kernel_rfl)
theorem coverC0_S1 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 := View.cover_of_tiledL _ S128x4096.size (by sl_kernel_rfl)
theorem coverC0_S2 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1 := View.cover_of_tiledL _ S128x4096.size (by sl_kernel_rfl)
theorem coverC0_S3 : Covers (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1 := View.cover_of_tiledL _ S128x4096.size (by sl_kernel_rfl)
end

end

section
variable (V : (c : Dev nD) → (b : Ref sig .tc) → Buf (Elt F) ((c : Thread nD τ).loc b))

set_option maxHeartbeats 3200000 in
/-- What the scratch arrays hold after the body at position `n`: the first K-block's run over anything, every later run over what position `n - 1` left. -/
def scAt0 (c : Dev nD) : (n : ℕ) → n < cfg0.N → Vec F S128x4096 .f32 × Vec F S128x4096 .f32 × Vec F S128x4096 .f32 × Vec F S128x4096 .f32
  | 0, hn => (rdS0 (runA0 V c ⟨0, hn⟩ (Nat.zero_mod _) (show ¬(0 % 8 = 7) by decide)).1,
      rdS0 (runA0 V c ⟨0, hn⟩ (Nat.zero_mod _) (show ¬(0 % 8 = 7) by decide)).2.1,
      rdS0 (runA0 V c ⟨0, hn⟩ (Nat.zero_mod _) (show ¬(0 % 8 = 7) by decide)).2.2.1,
      rdS0 (runA0 V c ⟨0, hn⟩ (Nat.zero_mod _) (show ¬(0 % 8 = 7) by decide)).2.2.2.1)
  | n + 1, hn =>
    if h0 : (n + 1) % 8 = 0 then
      (rdS0 (runA0 V c ⟨n + 1, hn⟩ h0 (show ¬((n + 1) % 8 = 7) by omega)).1,
      rdS0 (runA0 V c ⟨n + 1, hn⟩ h0 (show ¬((n + 1) % 8 = 7) by omega)).2.1,
      rdS0 (runA0 V c ⟨n + 1, hn⟩ h0 (show ¬((n + 1) % 8 = 7) by omega)).2.2.1,
      rdS0 (runA0 V c ⟨n + 1, hn⟩ h0 (show ¬((n + 1) % 8 = 7) by omega)).2.2.2.1)
    else
      if h1 : (n + 1) % 8 = 7 then
        (rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.1,
      rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.1,
      rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.2.1,
      rdS0 (runC0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.2.2.1)
      else
        (rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).1,
      rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.1,
      rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.1,
      rdS0 (runB0 V c ⟨n + 1, hn⟩ h0 h1 (scAt0 c n (Nat.lt_of_succ_lt hn)).1 (scAt0 c n (Nat.lt_of_succ_lt hn)).2.1 (scAt0 c n (Nat.lt_of_succ_lt hn)).2.2.1 (scAt0 c n (Nat.lt_of_succ_lt hn)).2.2.2).2.2.2.1)

theorem pred_lt0 (t : Fin cfg0.N) : t.val - 1 < cfg0.N := Nat.lt_of_le_of_lt (Nat.sub_le _ _) t.isLt

theorem scAt0_A (c : Dev nD) (t : Fin cfg0.N) (h0 : t.val % 8 = 0) (h1 : ¬t.val % 8 = 7) :
    scAt0 V c t.val t.isLt = (rdS0 (runA0 V c t h0 h1).1,
      rdS0 (runA0 V c t h0 h1).2.1,
      rdS0 (runA0 V c t h0 h1).2.2.1,
      rdS0 (runA0 V c t h0 h1).2.2.2.1) := by
  obtain ⟨n, hn⟩ := t
  cases n with
  | zero => exact rfl
  | succ n => exact (dif_pos h0).trans rfl

theorem scAt0_B (c : Dev nD) (t : Fin cfg0.N) (h0 : ¬t.val % 8 = 0) (h1 : ¬t.val % 8 = 7) :
    scAt0 V c t.val t.isLt = (rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).1,
      rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.1,
      rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.1,
      rdS0 (runB0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.1) := by
  obtain ⟨n, hn⟩ := t
  cases n with
  | zero => exact absurd (Nat.zero_mod _) h0
  | succ n => exact (dif_neg h0).trans ((dif_neg h1).trans rfl)

theorem scAt0_C (c : Dev nD) (t : Fin cfg0.N) (h0 : ¬t.val % 8 = 0) (h1 : t.val % 8 = 7) :
    scAt0 V c t.val t.isLt = (rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.1,
      rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.1,
      rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.2.1,
      rdS0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.2.2.2.2.1) := by
  obtain ⟨n, hn⟩ := t
  cases n with
  | zero => exact absurd (Nat.zero_mod _) h0
  | succ n => exact (dif_neg h0).trans ((dif_pos h1).trans rfl)

/-- An output's block after point `t`: what the last K-block's run stored. -/
def outAt0_6 (c : Dev nD) (t : Fin cfg0.N) : Vec F S128x4096 .bf16 :=
  if h1 : t.val % 8 = 7 then
    rdO0 (runC0 V c t (show ¬(t.val % 8 = 0) by omega) h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).1
  else VO0_6.read (Elt F) VO0_6.junk
def outAt0_7 (c : Dev nD) (t : Fin cfg0.N) : Vec F S128x4096 .bf16 :=
  if h1 : t.val % 8 = 7 then
    rdO0 (runC0 V c t (show ¬(t.val % 8 = 0) by omega) h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.1
  else VO0_7.read (Elt F) VO0_7.junk

theorem outAt0_6_C (c : Dev nD) (t : Fin cfg0.N) (h0 : ¬t.val % 8 = 0) (h1 : t.val % 8 = 7) :
    outAt0_6 V c t = rdO0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).1 := by
  unfold outAt0_6; rw [dif_pos h1]
theorem outAt0_7_C (c : Dev nD) (t : Fin cfg0.N) (h0 : ¬t.val % 8 = 0) (h1 : t.val % 8 = 7) :
    outAt0_7 V c t = rdO0 (runC0 V c t h0 h1 (scAt0 V c (t.val - 1) (pred_lt0 t)).1 (scAt0 V c (t.val - 1) (pred_lt0 t)).2.1 (scAt0 V c (t.val - 1) (pred_lt0 t)).2.2.1 (scAt0 V c (t.val - 1) (pred_lt0 t)).2.2.2).2.1 := by
  unfold outAt0_7; rw [dif_pos h1]

theorem PhiA0_split (c : Dev nD) : (Pipeline.ΦA spec0 c : sProp 𝕄) ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ other0 c ∗ (∃ r, prngReg c r)) := by
  unfold Pipeline.ΦA other0; rw [scopedRest0_eq]; simp only [scM0_0, scM0_1, scM0_2, scM0_3, owns_whole]
  iintro ⟨⟨HS0, HS1, HS2, HS3, Hr⟩, Hg⟩
  isplitl [HS0]; · iexact HS0
  isplitl [HS1]; · iexact HS1
  isplitl [HS2]; · iexact HS2
  isplitl [HS3]; · iexact HS3
  isplitl [Hr]; · iexact Hr
  iexact Hg

theorem PhiA0_join (c : Dev nD) : iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ other0 c ∗ (∃ r, prngReg c r)) ⊢ (Pipeline.ΦA spec0 c : sProp 𝕄) := by
  unfold Pipeline.ΦA other0; rw [scopedRest0_eq]; simp only [scM0_0, scM0_1, scM0_2, scM0_3, owns_whole]
  iintro ⟨HS0, HS1, HS2, HS3, Hr, Hg⟩
  isplitr [Hg]
  swap; · iexact Hg
  isplitl [HS0]; · iexact HS0
  isplitl [HS1]; · iexact HS1
  isplitl [HS2]; · iexact HS2
  isplitl [HS3]; · iexact HS3
  iexact Hr

/-- The invariant carried from point to point: the scratch arrays at what the point before left. -/
def PhiS0 (c : Dev nD) : (n : ℕ) → n ≤ cfg0.N → sProp 𝕄
  | 0, _ => Pipeline.ΦA spec0 c
  | n + 1, hn => iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2 ∗ other0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare (scAt0 V c n hn).1 ∗ owns (c : Thread nD τ) scM0_1 fullShare (scAt0 V c n hn).2.1 ∗ owns (c : Thread nD τ) scM0_2 fullShare (scAt0 V c n hn).2.2.1 ∗ owns (c : Thread nD τ) scM0_3 fullShare (scAt0 V c n hn).2.2.2 ∗ other0 c ∗ (∃ r, prngReg c r)) := rfl
theorem PhiS0_pos (c : Dev nD) (n : ℕ) (h : n ≤ cfg0.N) (hz : n ≠ 0) :
    PhiS0 V c n h = iprop(owns (c : Thread nD τ) scM0_0 fullShare (scAt0 V c (n - 1) (by omega)).1 ∗ owns (c : Thread nD τ) scM0_1 fullShare (scAt0 V c (n - 1) (by omega)).2.1 ∗ owns (c : Thread nD τ) scM0_2 fullShare (scAt0 V c (n - 1) (by omega)).2.2.1 ∗ owns (c : Thread nD τ) scM0_3 fullShare (scAt0 V c (n - 1) (by omega)).2.2.2 ∗ other0 c ∗ (∃ r, prngReg c r)) := by
  cases n with
  | zero => exact absurd rfl hz
  | succ n => rfl

/-- At any position the invariant yields the scratch arrays at some contents. -/
theorem PhiS0_forget (c : Dev nD) (n : ℕ) (h : n ≤ cfg0.N) :
    PhiS0 V c n h ⊢ iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ other0 c ∗ (∃ r, prngReg c r)) := by
  cases n with
  | zero => exact PhiA0_split c
  | succ n =>
    rw [PhiS0_succ]
    iintro ⟨HS0, HS1, HS2, HS3, Hr⟩
    isplitl [HS0]; · iexists _; iexact HS0
    isplitl [HS1]; · iexists _; iexact HS1
    isplitl [HS2]; · iexists _; iexact HS2
    isplitl [HS3]; · iexists _; iexact HS3
    iexact Hr

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0_6 V c t
    | ⟨7, _⟩ => outAt0_7 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outAt0_6 V c t := by dsimp only [dat0]
theorem after0_7 (c : Dev nD) (t : Fin cfg0.N) : (dat0 V c).after 7 t = outAt0_7 V c t := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the K-block index picks the run; the invariant lends the run the scratch arrays and takes them back at the pieces it wrote, which cover them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 64 := lt_of_lt_of_eq t.isLt (show cfg0.N = 64 from N_0)
  by_cases h1 : t.val % 8 = 7
  · have h0 : ¬t.val % 8 = 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [show (dat0 V c).leavesExact 7 t = owns (c : Thread nD τ) (ms0_7 t) fullShare ((dat0 V c).after 7 t) from by
      unfold Dat.leavesExact; rw [liveAt0_7 t ((hcond0_1 t).mpr h1)], after0_7]
    rw [scAt0_C V c t h0 h1, outAt0_6_C V c t h0 h1, outAt0_7_C V c t h0 h1, PhiS0_pos V c _ _ (by omega)]
    unfold rdS0 rdO0; dsimp only
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC0 V c t h0 h1 _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr]
    · isplitl [HS0]; · iapply owns_of_writes (h := coverC0_S0); iexact HS0
      isplitl [HS1]; · iapply owns_of_writes (h := coverC0_S1); iexact HS1
      isplitl [HS2]; · iapply owns_of_writes (h := coverC0_S2); iexact HS2
      isplitl [HS3]; · iapply owns_of_writes (h := coverC0_S3); iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply owns_of_writes (h := coverC0_6); iexact H6
    iapply owns_of_writes (h := coverC0_7); iexact H7
  · rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    by_cases h0 : t.val % 8 = 0
    · rw [scAt0_A V c t h0 h1]
      unfold rdS0; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := PhiS0_forget V c _ _ $$ HΦ
      icases HΦ' with ⟨HS0, HS1, HS2, HS3, Hr⟩
      iapply ((runA0 V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hr]
      · isplitl [HS0]; · iapply owns_of_writes (h := coverA0_0); iexact HS0
        isplitl [HS1]; · iapply owns_of_writes (h := coverA0_1); iexact HS1
        isplitl [HS2]; · iapply owns_of_writes (h := coverA0_2); iexact HS2
        isplitl [HS3]; · iapply owns_of_writes (h := coverA0_3); iexact HS3
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [scAt0_B V c t h0 h1, PhiS0_pos V c _ _ (by omega)]
      unfold rdS0; dsimp only
      iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB0 V c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hr]
      · isplitl [HS0]; · iapply owns_of_writes (h := coverB0_0); iexact HS0
        isplitl [HS1]; · iapply owns_of_writes (h := coverB0_1); iexact HS1
        isplitl [HS2]; · iapply owns_of_writes (h := coverB0_2); iexact HS2
        isplitl [HS3]; · iapply owns_of_writes (h := coverB0_3); iexact HS3
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c :=
  (PhiS0_forget V c (Fin.last cfg0.N).val (Nat.le_of_lt_succ (Fin.last cfg0.N).isLt)).trans (PhiA0_join c)

end

end Cert.KernelIdeal.Fr

end
-- ==== Proof.KernelIdeal.Shared1.lean ====
/-
  Region 1 of the program (the two linear heads: two K-blocked products accumulated in two scratch arrays, the bias rows added at the last K-block),
  what every case of its body shares. The grid is 8 x 8, a point t = 8*m + k: m the row block, k the K-block.
  Here: each window's block at a point as a function of the arrays the region is entered with (V); that an
  input window's current staging buffer holds that block at every point, fetched there or not; the two
  conditions of the body (k = 0: the accumulators are reset; k = 7: the outputs are stored) in closed form
  over the grid; where the output windows are idle and where they are written back; the staging and scratch
  memrefs by name; and the region invariant before the first point with the carried scratch arrays split out.
-/
import proofs.«181483_j14396730376920_1_alg».proof.Proof.Gen.KernelIdeal.Launch
import proofs.«181483_j14396730376920_1_alg».proof.Proof.Gen.KernelIdeal.Skeleton
import proofs.«181483_j14396730376920_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or the block index did not move since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there
    or the block index did not move since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there
    or the block index did not move since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there
    or the block index did not move since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there
    or the block index did not move since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there
    or the block index did not move since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, over the grid -/

/-- The first condition: the K-block index is 0 (the accumulators are reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the K-block index is 7 (the outputs are stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle, and where the outputs are written back -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-- Output window 6 is stored only at k = 7: idle, and not written back, at every other point. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-- Output window 7 is stored only at k = 7: idle, and not written back, at every other point. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the body is called with -/
abbrev ms1_0 (t : Fin cfg1.N) : Memref sig .tc .vmem S128x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4096 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x4096 .f32 := win1_7.stage (cfg1.slots t 7)
abbrev hs1_7 (t : Fin cfg1.N) : (ms1_7 t).IsWhole := hstage1_7 ((cfg1.slots t 7).cast nbuf1_7)
/-- One staging buffer of output window 6, through which what the body leaves there is stated. -/
abbrev VO1_6 : View sig .tc .vmem S128x4096 .f32 := (Memref.whole cc1_stg6_0 : Memref sig .tc .vmem S128x4096 .f32).view
/-- One staging buffer of output window 7, through which what the body leaves there is stated. -/
abbrev VO1_7 : View sig .tc .vmem S128x4096 .f32 := (Memref.whole cc1_stg7_0 : Memref sig .tc .vmem S128x4096 .f32).view
/-- Scratch array 0: a whole scoped buffer of the kernel's own, carried from point to point. -/
abbrev scM1_0 : Memref sig .tc .vmem S128x4096 .f32 := Memref.whole cc1_scratch0
abbrev VS1_0 : View sig .tc .vmem S128x4096 .f32 := scM1_0.view
/-- Scratch array 1: a whole scoped buffer of the kernel's own, carried from point to point. -/
abbrev scM1_1 : Memref sig .tc .vmem S128x4096 .f32 := Memref.whole cc1_scratch1
abbrev VS1_1 : View sig .tc .vmem S128x4096 .f32 := scM1_1.view

/-! ## The region invariant before the first point -/

/-- The scoped buffers of the core that are neither a staging buffer of this region nor one of its scratch arrays,
    each whole at some contents: they pass through the region untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

end Cert.KernelIdeal.Fr

end
-- ==== Proof.KernelIdeal.Run1B.lean ====
import proofs.«181483_j14396730376920_1_alg».proof.Proof.KernelIdeal.Shared1
import proofs.«181483_j14396730376920_1_alg».proof.Proof.LibPieces

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S128x4096 .f32) (harg11 : arg11.IsWhole) (hc0 : ¬cond1_0 i) (hc1 : ¬cond1_1 i)
    (x0 : Vec F S128x4096 .bf16) (x1 : Vec F S128x4096 .bf16) (x2 : Vec F S4096x512 .bf16) (x3 : Vec F S4096x512 .bf16) (x4 : Vec F S1x4096 .f32) (x5 : Vec F S1x4096 .f32)
    (xs0 : Vec F S128x4096 .f32) (xs1 : Vec F S128x4096 .f32) :
    Σ' (LS0 : List (View.Piece (Elt F) S128x4096 .f32)), { LS1 : List (View.Piece (Elt F) S128x4096 .f32) //
      ∀ (xi6 : Vec F S128x4096 .f32) (xi7 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc1__stage2_kernel_eq_skeleton]; unfold cc1__stage2_kernel_skel
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11]
    iintro ⟨H0, H1, H2, H3, H4, H5, H6, H7, HS0, HS1, Hk⟩
    sl_exec (disch := first | exact hc0 | exact hc1)
    sl_step
    iapply Hk
    iframe H0 H1 H2 H3 H4 H5 H6 H7
    isplitl [HS0]; · iexists _; iexact HS0
    iexists _; iexact HS1

end Cert.KernelIdeal.Fr

end
-- ==== Proof.KernelIdeal.Run1A.lean ====
import proofs.«181483_j14396730376920_1_alg».proof.Proof.KernelIdeal.Run1B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S128x4096 .f32) (harg11 : arg11.IsWhole) (hc0 : cond1_0 i) (hc1 : ¬cond1_1 i)
    (x0 : Vec F S128x4096 .bf16) (x1 : Vec F S128x4096 .bf16) (x2 : Vec F S4096x512 .bf16) (x3 : Vec F S4096x512 .bf16) (x4 : Vec F S1x4096 .f32) (x5 : Vec F S1x4096 .f32) :
    Σ' (LS0 : List (View.Piece (Elt F) S128x4096 .f32)), { LS1 : List (View.Piece (Elt F) S128x4096 .f32) //
      ∀ (xi6 : Vec F S128x4096 .f32) (xi7 : Vec F S128x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc1__stage2_kernel_eq_skeleton]; unfold cc1__stage2_kernel_skel
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11]
    iintro ⟨H0, H1, H2, H3, H4, H5, H6, H7, ⟨%ds0, HS0⟩, ⟨%ds1, HS1⟩, Hk⟩
    sl_exec (disch := first | exact hc0 | exact hc1)
    sl_step
    iapply Hk
    iframe H0 H1 H2 H3 H4 H5 H6 H7
    isplitl [HS0]; · iexists _; iexact HS0
    iexists _; iexact HS1

end Cert.KernelIdeal.Fr

end
-- ==== Proof.KernelIdeal.Run1C.lean ====
import proofs.«181483_j14396730376920_1_alg».proof.Proof.KernelIdeal.Run1A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

set_option maxHeartbeats 1000000 in

noncomputable def kernelRun1_C (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S128x4096 .f32) (harg11 : arg11.IsWhole) (hc0 : ¬cond1_0 i) (hc1 : cond1_1 i)
    (x0 : Vec F S128x4096 .bf16) (x1 : Vec F S128x4096 .bf16) (x2 : Vec F S4096x512 .bf16) (x3 : Vec F S4096x512 .bf16) (x4 : Vec F S1x4096 .f32) (x5 : Vec F S1x4096 .f32)
    (xs0 : Vec F S128x4096 .f32) (xs1 : Vec F S128x4096 .f32) :
    Σ' (L6 : List (View.Piece (Elt F) S128x4096 .f32)) (L7 : List (View.Piece (Elt F) S128x4096 .f32)) (LS0 : List (View.Piece (Elt F) S128x4096 .f32)), { LS1 : List (View.Piece (Elt F) S128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__stage2_kernel_eq_skeleton]; unfold cc1__stage2_kernel_skel
    simp only [owns_eq_unread (c : Thread nD τ) harg2, owns_eq_unread (c : Thread nD τ) harg3, owns_eq_unread (c : Thread nD τ) harg4, owns_eq_unread (c : Thread nD τ) harg5, owns_eq_unread (c : Thread nD τ) harg6, owns_eq_unread (c : Thread nD τ) harg7, owns_eq_unread (c : Thread nD τ) harg8, owns_eq_unread (c : Thread nD τ) harg9, owns_eq_unread (c : Thread nD τ) harg10, owns_eq_unread (c : Thread nD τ) harg11]
    iintro ⟨H0, H1, H2, H3, H4, H5, ⟨%d6, H6⟩, ⟨%d7, H7⟩, HS0, HS1, Hk⟩
    sl_exec (disch := first | exact hc0 | exact hc1)
    sl_step
    iapply Hk
    iframe H0 H1 H2 H3 H4 H5
    isplitl [H6]; · iexists _; iexact H6
    isplitl [H7]; · iexists _; iexact H7
    isplitl [HS0]; · iexists _; iexact HS0
    iexists _; iexact HS1

end Cert.KernelIdeal.Fr

end
-- ==== Proof.KernelIdeal.Body1.lean ====
import proofs.«181483_j14396730376920_1_alg».proof.Proof.KernelIdeal.Run1C
import proofs.«181483_j14396730376920_1_alg».proof.Proof.LibPieces

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibPieces

variable {F : FTy → Type} [FloatOps F]

local notation "𝕄" => MT nD τ sig Unit (Elt F) ℕ (UR sig nD τ) ℕ

section
variable (V : (c : Dev nD) → (b : Ref sig .tc) → Buf (Elt F) ((c : Thread nD τ).loc b))

abbrev runA1 (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _)
    ((hcond1_0 t).mpr h0) (fun h => h1 ((hcond1_1 t).mp h)) (iblk1 V c 0 t) (iblk1 V c 1 t) (iblk1 V c 2 t) (iblk1 V c 3 t) (iblk1 V c 4 t) (iblk1 V c 5 t)

abbrev runB1 (c : Dev nD) (t : Fin cfg1.N) (h0 : ¬t.val % 8 = 0) (h1 : ¬t.val % 8 = 7) (s0 s1 : Vec F S128x4096 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s0 s1

abbrev runC1 (c : Dev nD) (t : Fin cfg1.N) (h0 : ¬t.val % 8 = 0) (h1 : t.val % 8 = 7) (s0 s1 : Vec F S128x4096 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _)
    (fun h => h0 ((hcond1_0 t).mp h)) ((hcond1_1 t).mpr h1) (iblk1 V c 0 t) (iblk1 V c 1 t) (iblk1 V c 2 t) (iblk1 V c 3 t) (iblk1 V c 4 t) (iblk1 V c 5 t) s0 s1

end

def rdS (L : List (View.Piece (Elt F) S128x4096 .f32)) : Vec F S128x4096 .f32 :=
  VS1_0.read (Elt F) (VS1_0.writes (Elt F) VS1_0.junk L)

/-! The pieces every run leaves in an array tile it. -/
section
variable {c : Dev nD} {i : grid1.Coords} {arg2 : Memref sig .tc .vmem S128x4096 .bf16} {harg2 : arg2.IsWhole} {arg3 : Memref sig .tc .vmem S128x4096 .bf16} {harg3 : arg3.IsWhole} {arg4 : Memref sig .tc .vmem S4096x512 .bf16} {harg4 : arg4.IsWhole} {arg5 : Memref sig .tc .vmem S4096x512 .bf16} {harg5 : arg5.IsWhole} {arg6 : Memref sig .tc .vmem S1x4096 .f32} {harg6 : arg6.IsWhole} {arg7 : Memref sig .tc .vmem S1x4096 .f32} {harg7 : arg7.IsWhole} {arg8 : Memref sig .tc .vmem S128x4096 .f32} {harg8 : arg8.IsWhole} {arg9 : Memref sig .tc .vmem S128x4096 .f32} {harg9 : arg9.IsWhole} {arg10 : Memref sig .tc .vmem S128x4096 .f32} {harg10 : arg10.IsWhole} {arg11 : Memref sig .tc .vmem S128x4096 .f32} {harg11 : arg11.IsWhole}

section
variable {hc0 : cond1_0 i} {hc1 : ¬cond1_1 i} {x0 x1 : Vec F S128x4096 .bf16} {x2 x3 : Vec F S4096x512 .bf16} {x4 x5 : Vec F S1x4096 .f32}
theorem coverA1_0 : Covers (kernelRun1_A (F := F) c i arg2 harg2 arg3 harg3 arg4 harg4 arg5 harg5 arg6 harg6 arg7 harg7 arg8 harg8 arg9 harg9 arg10 harg10 arg11 harg11 hc0 hc1 x0 x1 x2 x3 x4 x5).1 := View.cover_of_tiledL _ S128x4096.size (by sl_kernel_rfl)
theorem coverA1_1 : Covers (kernelRun1_A (F := F) c i arg2 harg2 arg3 harg3 arg4 harg4 arg5 harg5 arg6 harg6 arg7 harg7 arg8 harg8 arg9 harg9 arg10 harg10 arg11 harg11 hc0 hc1 x0 x1 x2 x3 x4 x5).2.1 := View.cover_of_tiledL _ S128x4096.size (by sl_kernel_rfl)
end

section
variable {hc0 : ¬cond1_0 i} {hc1 : ¬cond1_1 i} {x0 x1 : Vec F S128x4096 .bf16} {x2 x3 : Vec F S4096x512 .bf16} {x4 x5 : Vec F S1x4096 .f32} {xs0 xs1 : Vec F S128x4096 .f32}
theorem coverB1_0 : Covers (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).1 := View.cover_of_tiledL _ S128x4096.size (by sl_kernel_rfl)
theorem coverB1_1 : Covers (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 := View.cover_of_tiledL _ S128x4096.size (by sl_kernel_rfl)
end

section
variable {hc0 : ¬cond1_0 i} {hc1 : cond1_1 i} {x0 x1 : Vec F S128x4096 .bf16} {x2 x3 : Vec F S4096x512 .bf16} {x4 x5 : Vec F S1x4096 .f32} {xs0 xs1 : Vec F S128x4096 .f32}
theorem coverC1_6 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1 := View.cover_of_tiledL _ S128x4096.size (by sl_kernel_rfl)
theorem coverC1_7 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 := View.cover_of_tiledL _ S128x4096.size (by sl_kernel_rfl)
theorem coverC1_S0 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 := View.cover_of_tiledL _ S128x4096.size (by sl_kernel_rfl)
theorem coverC1_S1 : Covers (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 := View.cover_of_tiledL _ S128x4096.size (by sl_kernel_rfl)
end

end

section
variable (V : (c : Dev nD) → (b : Ref sig .tc) → Buf (Elt F) ((c : Thread nD τ).loc b))

/-- What the scratch arrays hold after the body at position `n`: the first K-block's run over anything, every later run over what position `n - 1` left. -/
def scAt1 (c : Dev nD) : (n : ℕ) → n < cfg1.N → Vec F S128x4096 .f32 × Vec F S128x4096 .f32
  | 0, hn => (rdS (runA1 V c ⟨0, hn⟩ (Nat.zero_mod _) (show ¬(0 % 8 = 7) by decide)).1,
      rdS (runA1 V c ⟨0, hn⟩ (Nat.zero_mod _) (show ¬(0 % 8 = 7) by decide)).2.1)
  | n + 1, hn =>
    if h0 : (n + 1) % 8 = 0 then
      (rdS (runA1 V c ⟨n + 1, hn⟩ h0 (show ¬((n + 1) % 8 = 7) by omega)).1,
      rdS (runA1 V c ⟨n + 1, hn⟩ h0 (show ¬((n + 1) % 8 = 7) by omega)).2.1)
    else
      if h1 : (n + 1) % 8 = 7 then
        (rdS (runC1 V c ⟨n + 1, hn⟩ h0 h1 (scAt1 c n (Nat.lt_of_succ_lt hn)).1 (scAt1 c n (Nat.lt_of_succ_lt hn)).2).2.2.1,
      rdS (runC1 V c ⟨n + 1, hn⟩ h0 h1 (scAt1 c n (Nat.lt_of_succ_lt hn)).1 (scAt1 c n (Nat.lt_of_succ_lt hn)).2).2.2.2.1)
      else
        (rdS (runB1 V c ⟨n + 1, hn⟩ h0 h1 (scAt1 c n (Nat.lt_of_succ_lt hn)).1 (scAt1 c n (Nat.lt_of_succ_lt hn)).2).1,
      rdS (runB1 V c ⟨n + 1, hn⟩ h0 h1 (scAt1 c n (Nat.lt_of_succ_lt hn)).1 (scAt1 c n (Nat.lt_of_succ_lt hn)).2).2.1)

theorem pred_lt1 (t : Fin cfg1.N) : t.val - 1 < cfg1.N := Nat.lt_of_le_of_lt (Nat.sub_le _ _) t.isLt

theorem scAt1_A (c : Dev nD) (t : Fin cfg1.N) (h0 : t.val % 8 = 0) (h1 : ¬t.val % 8 = 7) :
    scAt1 V c t.val t.isLt = (rdS (runA1 V c t h0 h1).1,
      rdS (runA1 V c t h0 h1).2.1) := by
  obtain ⟨n, hn⟩ := t
  cases n with
  | zero => exact rfl
  | succ n => exact (dif_pos h0).trans rfl

theorem scAt1_B (c : Dev nD) (t : Fin cfg1.N) (h0 : ¬t.val % 8 = 0) (h1 : ¬t.val % 8 = 7) :
    scAt1 V c t.val t.isLt = (rdS (runB1 V c t h0 h1 (scAt1 V c (t.val - 1) (pred_lt1 t)).1 (scAt1 V c (t.val - 1) (pred_lt1 t)).2).1,
      rdS (runB1 V c t h0 h1 (scAt1 V c (t.val - 1) (pred_lt1 t)).1 (scAt1 V c (t.val - 1) (pred_lt1 t)).2).2.1) := by
  obtain ⟨n, hn⟩ := t
  cases n with
  | zero => exact absurd (Nat.zero_mod _) h0
  | succ n => exact (dif_neg h0).trans ((dif_neg h1).trans rfl)

theorem scAt1_C (c : Dev nD) (t : Fin cfg1.N) (h0 : ¬t.val % 8 = 0) (h1 : t.val % 8 = 7) :
    scAt1 V c t.val t.isLt = (rdS (runC1 V c t h0 h1 (scAt1 V c (t.val - 1) (pred_lt1 t)).1 (scAt1 V c (t.val - 1) (pred_lt1 t)).2).2.2.1,
      rdS (runC1 V c t h0 h1 (scAt1 V c (t.val - 1) (pred_lt1 t)).1 (scAt1 V c (t.val - 1) (pred_lt1 t)).2).2.2.2.1) := by
  obtain ⟨n, hn⟩ := t
  cases n with
  | zero => exact absurd (Nat.zero_mod _) h0
  | succ n => exact (dif_neg h0).trans ((dif_pos h1).trans rfl)

/-- An output's block after point `t`: what the last K-block's run stored. -/
def outAt1_6 (c : Dev nD) (t : Fin cfg1.N) : Vec F S128x4096 .f32 :=
  if h1 : t.val % 8 = 7 then
    rdS (runC1 V c t (show ¬(t.val % 8 = 0) by omega) h1 (scAt1 V c (t.val - 1) (pred_lt1 t)).1 (scAt1 V c (t.val - 1) (pred_lt1 t)).2).1
  else VO1_6.read (Elt F) VO1_6.junk
def outAt1_7 (c : Dev nD) (t : Fin cfg1.N) : Vec F S128x4096 .f32 :=
  if h1 : t.val % 8 = 7 then
    rdS (runC1 V c t (show ¬(t.val % 8 = 0) by omega) h1 (scAt1 V c (t.val - 1) (pred_lt1 t)).1 (scAt1 V c (t.val - 1) (pred_lt1 t)).2).2.1
  else VO1_7.read (Elt F) VO1_7.junk

theorem outAt1_6_C (c : Dev nD) (t : Fin cfg1.N) (h0 : ¬t.val % 8 = 0) (h1 : t.val % 8 = 7) :
    outAt1_6 V c t = rdS (runC1 V c t h0 h1 (scAt1 V c (t.val - 1) (pred_lt1 t)).1 (scAt1 V c (t.val - 1) (pred_lt1 t)).2).1 := by
  unfold outAt1_6; rw [dif_pos h1]
theorem outAt1_7_C (c : Dev nD) (t : Fin cfg1.N) (h0 : ¬t.val % 8 = 0) (h1 : t.val % 8 = 7) :
    outAt1_7 V c t = rdS (runC1 V c t h0 h1 (scAt1 V c (t.val - 1) (pred_lt1 t)).1 (scAt1 V c (t.val - 1) (pred_lt1 t)).2).2.1 := by
  unfold outAt1_7; rw [dif_pos h1]

theorem PhiA1_split (c : Dev nD) : (Pipeline.ΦA spec1 c : sProp 𝕄) ⊢ iprop((∃ d, owns (c : Thread nD τ) scM1_0 fullShare d) ∗ (∃ d, owns (c : Thread nD τ) scM1_1 fullShare d) ∗ other1 c ∗ (∃ r, prngReg c r)) := by
  unfold Pipeline.ΦA other1; rw [scopedRest1_eq]; simp only [scM1_0, scM1_1, owns_whole]
  iintro ⟨⟨H0, H1, H2, H3, H4, H5, H6, H7, H8, H9, H10, H11, H12, H13, H14, H15, H16, H17, HS0, HS1⟩, Hg⟩
  isplitl [HS0]; · iexact HS0
  isplitl [HS1]; · iexact HS1
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem PhiA1_join (c : Dev nD) : iprop((∃ d, owns (c : Thread nD τ) scM1_0 fullShare d) ∗ (∃ d, owns (c : Thread nD τ) scM1_1 fullShare d) ∗ other1 c ∗ (∃ r, prngReg c r)) ⊢ (Pipeline.ΦA spec1 c : sProp 𝕄) := by
  unfold Pipeline.ΦA other1; rw [scopedRest1_eq]; simp only [scM1_0, scM1_1, owns_whole]
  iintro ⟨HS0, HS1, ⟨H0, H1, H2, H3, H4, H5, H6, H7, H8, H9, H10, H11, H12, H13, H14, H15, H16, H17⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  iexact HS1

/-- The invariant carried from point to point: the scratch arrays at what the point before left. -/
def PhiS1 (c : Dev nD) : (n : ℕ) → n ≤ cfg1.N → sProp 𝕄
  | 0, _ => Pipeline.ΦA spec1 c
  | n + 1, hn => iprop(owns (c : Thread nD τ) scM1_0 fullShare (scAt1 V c n hn).1 ∗ owns (c : Thread nD τ) scM1_1 fullShare (scAt1 V c n hn).2 ∗ other1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare (scAt1 V c n hn).1 ∗ owns (c : Thread nD τ) scM1_1 fullShare (scAt1 V c n hn).2 ∗ other1 c ∗ (∃ r, prngReg c r)) := rfl
theorem PhiS1_pos (c : Dev nD) (n : ℕ) (h : n ≤ cfg1.N) (hz : n ≠ 0) :
    PhiS1 V c n h = iprop(owns (c : Thread nD τ) scM1_0 fullShare (scAt1 V c (n - 1) (by omega)).1 ∗ owns (c : Thread nD τ) scM1_1 fullShare (scAt1 V c (n - 1) (by omega)).2 ∗ other1 c ∗ (∃ r, prngReg c r)) := by
  cases n with
  | zero => exact absurd rfl hz
  | succ n => rfl

/-- At any position the invariant yields the scratch arrays at some contents. -/
theorem PhiS1_forget (c : Dev nD) (n : ℕ) (h : n ≤ cfg1.N) :
    PhiS1 V c n h ⊢ iprop((∃ d, owns (c : Thread nD τ) scM1_0 fullShare d) ∗ (∃ d, owns (c : Thread nD τ) scM1_1 fullShare d) ∗ other1 c ∗ (∃ r, prngReg c r)) := by
  cases n with
  | zero => exact PhiA1_split c
  | succ n =>
    rw [PhiS1_succ]
    iintro ⟨HS0, HS1, Hr⟩
    isplitl [HS0]; · iexists _; iexact HS0
    isplitl [HS1]; · iexists _; iexact HS1
    iexact Hr

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1_6 V c t
    | ⟨7, _⟩ => outAt1_7 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1_6 V c t := by dsimp only [dat1]
theorem after1_7 (c : Dev nD) (t : Fin cfg1.N) : (dat1 V c).after 7 t = outAt1_7 V c t := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the K-block index picks the run; the invariant lends the run the scratch arrays and takes them back at the pieces it wrote, which cover them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 64 := lt_of_lt_of_eq t.isLt (show cfg1.N = 64 from N_1)
  by_cases h1 : t.val % 8 = 7
  · have h0 : ¬t.val % 8 = 0 := by omega
    rw [show (dat1 V c).leavesExact 6 t = owns (c : Thread nD τ) (ms1_6 t) fullShare ((dat1 V c).after 6 t) from by
      unfold Dat.leavesExact; rw [liveAt1_6 t ((hcond1_1 t).mpr h1)], after1_6]
    rw [show (dat1 V c).leavesExact 7 t = owns (c : Thread nD τ) (ms1_7 t) fullShare ((dat1 V c).after 7 t) from by
      unfold Dat.leavesExact; rw [liveAt1_7 t ((hcond1_1 t).mpr h1)], after1_7]
    rw [scAt1_C V c t h0 h1, outAt1_6_C V c t h0 h1, outAt1_7_C V c t h0 h1, PhiS1_pos V c _ _ (by omega)]
    unfold rdS; dsimp only
    iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC1 V c t h0 h1 _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hr]
    · isplitl [HS0]; · iapply owns_of_writes (h := coverC1_S0); iexact HS0
      isplitl [HS1]; · iapply owns_of_writes (h := coverC1_S1); iexact HS1
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply owns_of_writes (h := coverC1_6); iexact H6
    iapply owns_of_writes (h := coverC1_7); iexact H7
  · rw [Dat.leavesExact_idle (dat1 V c) 6 t (idleAt1_6 t (fun h => h1 ((hcond1_1 t).mp h))) (noFlush1_6 t (fun h => h1 ((hcond1_1 t).mp h)))]
    rw [Dat.leavesExact_idle (dat1 V c) 7 t (idleAt1_7 t (fun h => h1 ((hcond1_1 t).mp h))) (noFlush1_7 t (fun h => h1 ((hcond1_1 t).mp h)))]
    by_cases h0 : t.val % 8 = 0
    · rw [scAt1_A V c t h0 h1]
      unfold rdS; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := PhiS1_forget V c _ _ $$ HΦ
      icases HΦ' with ⟨HS0, HS1, Hr⟩
      iapply ((runA1 V c t h0 h1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr]
      · isplitl [HS0]; · iapply owns_of_writes (h := coverA1_0); iexact HS0
        isplitl [HS1]; · iapply owns_of_writes (h := coverA1_1); iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [scAt1_B V c t h0 h1, PhiS1_pos V c _ _ (by omega)]
      unfold rdS; dsimp only
      iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB1 V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hr]
      · isplitl [HS0]; · iapply owns_of_writes (h := coverB1_0); iexact HS0
        isplitl [HS1]; · iapply owns_of_writes (h := coverB1_1); iexact HS1
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c :=
  (PhiS1_forget V c (Fin.last cfg1.N).val (Nat.le_of_lt_succ (Fin.last cfg1.N).isLt)).trans (PhiA1_join c)

end

end Cert.KernelIdeal.Fr

end
-- ==== Proof.KernelIdeal.Launch.lean ====
import proofs.«181483_j14396730376920_1_alg».proof.Proof.KernelIdeal.Body0
import proofs.«181483_j14396730376920_1_alg».proof.Proof.KernelIdeal.Body1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset := by
  simp only [List.Forall, StableHlo.unary_writes, StableHlo.reshape_writes, Finset.singleton_subset_iff, List.mem_toFinset]
  exact ⟨List.mem_map_of_mem (by decide), List.mem_map_of_mem (by decide), List.mem_map_of_mem (by decide),
    List.mem_map_of_mem (by decide), List.mem_map_of_mem (by decide), List.mem_map_of_mem (by decide)⟩

theorem W1_of (c : Dev nD) (r : Ref sig .tc) (h : r ∉ hostOps0_W) : W1 m c (Proc.devRef .tc r) = W0 m c (Proc.devRef .tc r) :=
  StableHlo.after_of_writes_sub hostOps0 _ hostOps0_writes h

/-- A buffer no region writes and no host operation writes ends as launched. -/
theorem W3_keep (c : Dev nD) (r : Ref sig .tc) (h1 : ∀ w, Pipeline.arrRef spec1 w ≠ r) (hh : r ∉ hostOps0_W)
    (h2 : W2 m c (Proc.devRef .tc r) = W1 m c (Proc.devRef .tc r)) : W3 m c (Proc.devRef .tc r) = m ((c : Thread nD τ).loc r) :=
  (W3_of_ne m c r h1).trans (h2.trans (W1_of m c r hh))
/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W3_main_arg0 (c : Dev nD) : W3 m c (Proc.devRef .tc main_arg0) = m ((c : Thread nD τ).loc main_arg0) :=
  W3_keep m c main_arg0 (by decide) (by decide) (W2_in m c 0 rfl)
theorem W3_main_arg1 (c : Dev nD) : W3 m c (Proc.devRef .tc main_arg1) = m ((c : Thread nD τ).loc main_arg1) :=
  W3_keep m c main_arg1 (by decide) (by decide) (W2_in m c 1 rfl)
theorem W3_main_arg2 (c : Dev nD) : W3 m c (Proc.devRef .tc main_arg2) = m ((c : Thread nD τ).loc main_arg2) :=
  W3_keep m c main_arg2 (by decide) (by decide) (W2_of_ne m c main_arg2 (by decide))
theorem W3_main_arg3 (c : Dev nD) : W3 m c (Proc.devRef .tc main_arg3) = m ((c : Thread nD τ).loc main_arg3) :=
  W3_keep m c main_arg3 (by decide) (by decide) (W2_of_ne m c main_arg3 (by decide))
theorem W3_main_arg4 (c : Dev nD) : W3 m c (Proc.devRef .tc main_arg4) = m ((c : Thread nD τ).loc main_arg4) :=
  W3_keep m c main_arg4 (by decide) (by decide) (W2_in m c 4 rfl)
theorem W3_main_arg5 (c : Dev nD) : W3 m c (Proc.devRef .tc main_arg5) = m ((c : Thread nD τ).loc main_arg5) :=
  W3_keep m c main_arg5 (by decide) (by decide) (W2_in m c 5 rfl)
theorem W3_main_arg6 (c : Dev nD) : W3 m c (Proc.devRef .tc main_arg6) = m ((c : Thread nD τ).loc main_arg6) :=
  W3_keep m c main_arg6 (by decide) (by decide) (W2_of_ne m c main_arg6 (by decide))
theorem W3_main_arg7 (c : Dev nD) : W3 m c (Proc.devRef .tc main_arg7) = m ((c : Thread nD τ).loc main_arg7) :=
  W3_keep m c main_arg7 (by decide) (by decide) (W2_of_ne m c main_arg7 (by decide))
theorem W3_main_arg8 (c : Dev nD) : W3 m c (Proc.devRef .tc main_arg8) = m ((c : Thread nD τ).loc main_arg8) :=
  W3_keep m c main_arg8 (by decide) (by decide) (W2_of_ne m c main_arg8 (by decide))
theorem W3_main_arg9 (c : Dev nD) : W3 m c (Proc.devRef .tc main_arg9) = m ((c : Thread nD τ).loc main_arg9) :=
  W3_keep m c main_arg9 (by decide) (by decide) (W2_of_ne m c main_arg9 (by decide))

theorem W3_main_v7_0 (c : Dev nD) : W3 m c (Proc.devRef .tc main_v7_0) = (dat1 (V2 m) c).arrAt 6 cfg1.N := W3_arr m c 6
theorem W3_main_v7_1 (c : Dev nD) : W3 m c (Proc.devRef .tc main_v7_1) = (dat1 (V2 m) c).arrAt 7 cfg1.N := W3_arr m c 7

theorem V2_main_v6_0 (c : Dev nD) : V2 m c main_v6_0 = (dat0 (V1 m) c).arrAt 6 cfg0.N := W2_arr m c 6
theorem V2_main_v6_1 (c : Dev nD) : V2 m c main_v6_1 = (dat0 (V1 m) c).arrAt 7 cfg0.N := W2_arr m c 7

theorem V2_main_v2 (c : Dev nD) : V2 m c main_v2 = V1 m c main_v2 := W2_of_ne m c main_v2 (by decide)
theorem V2_main_v3 (c : Dev nD) : V2 m c main_v3 = V1 m c main_v3 := W2_of_ne m c main_v3 (by decide)
theorem V2_main_v4 (c : Dev nD) : V2 m c main_v4 = V1 m c main_v4 := W2_of_ne m c main_v4 (by decide)
theorem V2_main_v5 (c : Dev nD) : V2 m c main_v5 = V1 m c main_v5 := W2_of_ne m c main_v5 (by decide)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) from by
      unfold Pipeline.ΦA
      iintro ⟨Hp, -, Hr⟩
      isplitl [Hr]; · iexact Hr
      iexact Hp).trans (hin0 (V1 m) c)
  hout c :=
    (hout0 (V1 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (V2 m) c)
  hout c :=
    (hout1 (V2 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

theorem results : θ_run defs (onTc (τ := τ) (main (F := F))) ⟨m, fun _ => 0, ρ⟩ (fun r => ∀ c : Dev nD,
      r.2.mem ((c.tc : Thread nD τ).loc main_v7_0) = (dat1 (V2 m) c).arrAt 6 cfg1.N
      ∧ r.2.mem ((c.tc : Thread nD τ).loc main_v7_1) = (dat1 (V2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v7_0 (by decide))).trans (W3_main_v7_0 m c),
     (h c _ (mem_uc main_v7_1 (by decide))).trans (W3_main_v7_1 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c)⟩) (run_all m ρ)

end Cert.KernelIdeal.Fr

end
-- ==== Proof.KernelIdeal.Value0Pieces.lean ====
import proofs.«181483_j14396730376920_1_alg».proof.Proof.KernelIdeal.Body0
import Idealize.ShloMosaic.Lib.Pipeline.Value

set_option maxRecDepth 16384

noncomputable section

namespace Cert.KernelIdeal.FrV0

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Fr

variable {F : FTy → Type} [FloatOps F]

theorem zero2 : (![0, 0] : Fin 2 → Nat) = fun _ => 0 := funext fun a => by fin_cases a <;> rfl

abbrev colBlk (i : grid0.Coords) (x : Vec F S128x4096 .f32) : Vec F S128x512 .f32 :=
  View.ld x (Rect.unit (s := S128x4096) (k0_off1 i) S128x512.size (k0_off1_inb i))

variable (c : Dev nD) (i : grid0.Coords)
  (arg2 : Memref sig .tc .vmem S128x4096 .f32) (harg2 : arg2.IsWhole) (arg3 : Memref sig .tc .vmem S128x4096 .f32) (harg3 : arg3.IsWhole)
  (arg4 : Memref sig .tc .vmem S4096x512 .bf16) (harg4 : arg4.IsWhole) (arg5 : Memref sig .tc .vmem S4096x512 .bf16) (harg5 : arg5.IsWhole)
  (arg6 : Memref sig .tc .vmem S1x4096 .f32) (harg6 : arg6.IsWhole) (arg7 : Memref sig .tc .vmem S1x4096 .f32) (harg7 : arg7.IsWhole)
  (arg8 : Memref sig .tc .vmem S128x4096 .bf16) (harg8 : arg8.IsWhole) (arg9 : Memref sig .tc .vmem S128x4096 .bf16) (harg9 : arg9.IsWhole)
  (arg10 : Memref sig .tc .vmem S128x4096 .f32) (harg10 : arg10.IsWhole) (arg11 : Memref sig .tc .vmem S128x4096 .f32) (harg11 : arg11.IsWhole)
  (arg12 : Memref sig .tc .vmem S128x4096 .f32) (harg12 : arg12.IsWhole) (arg13 : Memref sig .tc .vmem S128x4096 .f32) (harg13 : arg13.IsWhole)
  (x0 x1 : Vec F S128x4096 .f32) (x2 x3 : Vec F S4096x512 .bf16) (x4 x5 : Vec F S1x4096 .f32) (xs0 xs1 xs2 xs3 : Vec F S128x4096 .f32)

theorem pieceA_0 (hc0 : cond0_0 i) (hc1 : ¬cond0_1 i) :
    rdS0 (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1 = k0_pay13 (colBlk i x0) x2 k0_pay5 := by
  unfold rdS0
  rw [View.read_writes_eq_canon _ _ _ coverA0_0]
  unfold kernelRun0_A
  dsimp only
  sl_unfold_run_names
  rw [View.canon_cons_unit_zero (S := S128x4096) zero2]
  simp only [View.readAt_eq_ld, harg2.read_unread, harg3.read_unread, harg4.read_unread, harg5.read_unread, harg6.read_unread, harg7.read_unread, View.readCov_unit_zero (S := S128x4096) _ zero2, View.ld_unit_zero (S := S4096x512) zero2, View.ld_unit_zero (S := S128x4096) zero2, View.ld_unit_zero (S := S1x4096) zero2]

theorem pieceA_1 (hc0 : cond0_0 i) (hc1 : ¬cond0_1 i) :
    rdS0 (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 = k0_pay14 (colBlk i x1) x2 k0_pay6 := by
  unfold rdS0
  rw [View.read_writes_eq_canon _ _ _ coverA0_1]
  unfold kernelRun0_A
  dsimp only
  sl_unfold_run_names
  rw [View.canon_cons_unit_zero (S := S128x4096) zero2]
  simp only [View.readAt_eq_ld, harg2.read_unread, harg3.read_unread, harg4.read_unread, harg5.read_unread, harg6.read_unread, harg7.read_unread, View.readCov_unit_zero (S := S128x4096) _ zero2, View.ld_unit_zero (S := S4096x512) zero2, View.ld_unit_zero (S := S128x4096) zero2, View.ld_unit_zero (S := S1x4096) zero2]

theorem pieceA_2 (hc0 : cond0_0 i) (hc1 : ¬cond0_1 i) :
    rdS0 (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 = k0_pay1 (k0_pay15 (colBlk i x0) x3 k0_pay7) := by
  unfold rdS0
  rw [View.read_writes_eq_canon _ _ _ coverA0_2]
  unfold kernelRun0_A
  dsimp only
  sl_unfold_run_names
  rw [View.canon_cons_unit_zero (S := S128x4096) zero2]
  simp only [View.readAt_eq_ld, harg2.read_unread, harg3.read_unread, harg4.read_unread, harg5.read_unread, harg6.read_unread, harg7.read_unread, View.readCov_unit_zero (S := S128x4096) _ zero2, View.ld_unit_zero (S := S4096x512) zero2, View.ld_unit_zero (S := S128x4096) zero2, View.ld_unit_zero (S := S1x4096) zero2]

theorem pieceA_3 (hc0 : cond0_0 i) (hc1 : ¬cond0_1 i) :
    rdS0 (kernelRun0_A (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 = k0_pay2 (k0_pay10 (colBlk i x1)) (k0_pay12 x3) k0_pay8 := by
  unfold rdS0
  rw [View.read_writes_eq_canon _ _ _ coverA0_3]
  unfold kernelRun0_A
  dsimp only
  sl_unfold_run_names
  rw [View.canon_cons_unit_zero (S := S128x4096) zero2]
  simp only [View.readAt_eq_ld, harg2.read_unread, harg3.read_unread, harg4.read_unread, harg5.read_unread, harg6.read_unread, harg7.read_unread, View.readCov_unit_zero (S := S128x4096) _ zero2, View.ld_unit_zero (S := S4096x512) zero2, View.ld_unit_zero (S := S128x4096) zero2, View.ld_unit_zero (S := S1x4096) zero2]

theorem pieceB_0 (hc0 : ¬cond0_0 i) (hc1 : ¬cond0_1 i) :
    rdS0 (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 = k0_pay13 (colBlk i x0) x2 xs0 := by
  unfold rdS0
  rw [View.read_writes_eq_canon _ _ _ coverB0_0]
  unfold kernelRun0_B
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceB_1 (hc0 : ¬cond0_0 i) (hc1 : ¬cond0_1 i) :
    rdS0 (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 = k0_pay14 (colBlk i x1) x2 xs1 := by
  unfold rdS0
  rw [View.read_writes_eq_canon _ _ _ coverB0_1]
  unfold kernelRun0_B
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceB_2 (hc0 : ¬cond0_0 i) (hc1 : ¬cond0_1 i) :
    rdS0 (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 = k0_pay1 (k0_pay15 (colBlk i x0) x3 xs2) := by
  unfold rdS0
  rw [View.read_writes_eq_canon _ _ _ coverB0_2]
  unfold kernelRun0_B
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceB_3 (hc0 : ¬cond0_0 i) (hc1 : ¬cond0_1 i) :
    rdS0 (kernelRun0_B (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 = k0_pay2 (k0_pay10 (colBlk i x1)) (k0_pay12 x3) xs3 := by
  unfold rdS0
  rw [View.read_writes_eq_canon _ _ _ coverB0_3]
  unfold kernelRun0_B
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceC_S0 (hc0 : ¬cond0_0 i) (hc1 : cond0_1 i) :
    rdS0 (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 = k0_pay13 (colBlk i x0) x2 xs0 := by
  unfold rdS0
  rw [View.read_writes_eq_canon _ _ _ coverC0_S0]
  unfold kernelRun0_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceC_S1 (hc0 : ¬cond0_0 i) (hc1 : cond0_1 i) :
    rdS0 (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 = k0_pay14 (colBlk i x1) x2 xs1 := by
  unfold rdS0
  rw [View.read_writes_eq_canon _ _ _ coverC0_S1]
  unfold kernelRun0_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceC_S2 (hc0 : ¬cond0_0 i) (hc1 : cond0_1 i) :
    rdS0 (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1 = k0_pay1 (k0_pay15 (colBlk i x0) x3 xs2) := by
  unfold rdS0
  rw [View.read_writes_eq_canon _ _ _ coverC0_S2]
  unfold kernelRun0_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceC_S3 (hc0 : ¬cond0_0 i) (hc1 : cond0_1 i) :
    rdS0 (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1 = k0_pay2 (k0_pay10 (colBlk i x1)) (k0_pay12 x3) xs3 := by
  unfold rdS0
  rw [View.read_writes_eq_canon _ _ _ coverC0_S3]
  unfold kernelRun0_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceC_6 (hc0 : ¬cond0_0 i) (hc1 : cond0_1 i) :
    rdO0 (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 = k0_pay3 x0 x1 (k0_pay13 (colBlk i x0) x2 xs0) (k0_pay14 (colBlk i x1) x2 xs1) (k0_pay1 (k0_pay15 (colBlk i x0) x3 xs2)) (k0_pay2 (k0_pay10 (colBlk i x1)) (k0_pay12 x3) xs3) x4 := by
  unfold rdO0
  rw [View.read_writes_eq_canon _ _ _ coverC0_6]
  unfold kernelRun0_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

theorem pieceC_7 (hc0 : ¬cond0_0 i) (hc1 : cond0_1 i) :
    rdO0 (kernelRun0_C (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 = k0_pay4 x0 x1 (k0_pay13 (colBlk i x0) x2 xs0) (k0_pay14 (colBlk i x1) x2 xs1) (k0_pay1 (k0_pay15 (colBlk i x0) x3 xs2)) (k0_pay2 (k0_pay10 (colBlk i x1)) (k0_pay12 x3) xs3) x5 := by
  unfold rdO0
  rw [View.read_writes_eq_canon _ _ _ coverC0_7]
  unfold kernelRun0_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, harg12.read_unread, harg13.read_unread, View.readCov_unit_zero (S := S128x4096) _ zero2, View.ld_unit_zero (S := S4096x512) zero2, View.ld_unit_zero (S := S128x4096) zero2, View.ld_unit_zero (S := S1x4096) zero2]

end Cert.KernelIdeal.FrV0

end
-- ==== Proof.Spec.lean ====
import Idealize.ShloMosaic.PureOps.Ideal.Laws
import Idealize.ShloMosaic.Lib.ValueIdx

noncomputable section

open scoped BigOperators

namespace Cert.Spec

open Idealize.ShloMosaic Idealize.ShloMosaic.ValueIdx

abbrev Arr : Type := (⟨2, ![1024, 4096]⟩ : Shape).Idx → EReal
abbrev Mat : Type := (⟨2, ![4096, 4096]⟩ : Shape).Idx → EReal
abbrev Row : Type := (⟨2, ![1, 4096]⟩ : Shape).Idx → EReal
abbrev Vec1 : Type := (⟨1, ![4096]⟩ : Shape).Idx → EReal

def arrOf (f : Fin 1024 → Fin 4096 → EReal) : Arr := fun i => f ⟨(i 0).val, idx2_lt0 i⟩ ⟨(i 1).val, idx2_lt1 i⟩

theorem arrOf_ix2 (f : Fin 1024 → Fin 4096 → EReal) (p : Fin 1024) (q : Fin 4096) : arrOf f (ix2 p q) = f p q := rfl

def rowDot (x : Arr) (M : Mat) (p : Fin 1024) (q : Fin 4096) : EReal := ∑ k : Fin 4096, x (ix2 p k) * M (ix2 q k)

def pPre (u w : Arr) (G B : Mat) (bias : Row) (p : Fin 1024) (q : Fin 4096) : EReal :=
  u (ix2 p q) * rowDot u G p q + w (ix2 p q) * rowDot w G p q + w (ix2 p q) * rowDot u B p q - u (ix2 p q) * rowDot w B p q + bias (ix2 (0 : Fin 1) q)

def qPre (u w : Arr) (G B : Mat) (bias : Row) (p : Fin 1024) (q : Fin 4096) : EReal :=
  w (ix2 p q) * rowDot u G p q - u (ix2 p q) * rowDot w G p q - u (ix2 p q) * rowDot u B p q - w (ix2 p q) * rowDot w B p q + bias (ix2 (0 : Fin 1) q)

def head (x : Arr) (M : Mat) (b : Vec1) (p : Fin 1024) (q : Fin 4096) : EReal := rowDot x M p q + b (ix1 q)

def outP (u w : Arr) (G B : Mat) (biasP : Row) (Wp : Mat) (bp : Vec1) : Arr := arrOf (head (arrOf (pPre u w G B biasP)) Wp bp)
def outQ (u w : Arr) (G B : Mat) (biasQ : Row) (Wq : Mat) (bq : Vec1) : Arr := arrOf (head (arrOf (qPre u w G B biasQ)) Wq bq)

end Cert.Spec

end
-- ==== Proof.KernelIdeal.Value0Points.lean ====
import proofs.«181483_j14396730376920_1_alg».proof.Proof.KernelIdeal.Value0Pieces
import proofs.«181483_j14396730376920_1_alg».proof.Proof.Spec
import Idealize.ShloMosaic.Lib.Pipeline.Value
import Idealize.ShloMosaic.Lib.ValueIdx

set_option maxRecDepth 16384

noncomputable section

namespace Cert.KernelIdeal.FrV0

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Fr
open Cert.Spec

theorem rowIdx0 : ∀ t : Fin cfg0.N, win0_0.index t 0 = t.val / 8 ∧ win0_0.index t 1 = 0 :=
  (by decide +kernel : ∀ t : Fin grid0.N, win0_0.index t 0 = t.val / 8 ∧ win0_0.index t 1 = 0)
theorem rowIdx1 : ∀ t : Fin cfg0.N, win0_1.index t 0 = t.val / 8 ∧ win0_1.index t 1 = 0 :=
  (by decide +kernel : ∀ t : Fin grid0.N, win0_1.index t 0 = t.val / 8 ∧ win0_1.index t 1 = 0)
theorem rowIdx6 : ∀ t : Fin cfg0.N, win0_6.index t 0 = t.val / 8 ∧ win0_6.index t 1 = 0 :=
  (by decide +kernel : ∀ t : Fin grid0.N, win0_6.index t 0 = t.val / 8 ∧ win0_6.index t 1 = 0)
theorem rowIdx7 : ∀ t : Fin cfg0.N, win0_7.index t 0 = t.val / 8 ∧ win0_7.index t 1 = 0 :=
  (by decide +kernel : ∀ t : Fin grid0.N, win0_7.index t 0 = t.val / 8 ∧ win0_7.index t 1 = 0)

theorem colIdx2 : ∀ t : Fin cfg0.N, win0_2.index t 0 = 0 ∧ win0_2.index t 1 = t.val % 8 :=
  (by decide +kernel : ∀ t : Fin grid0.N, win0_2.index t 0 = 0 ∧ win0_2.index t 1 = t.val % 8)
theorem colIdx3 : ∀ t : Fin cfg0.N, win0_3.index t 0 = 0 ∧ win0_3.index t 1 = t.val % 8 :=
  (by decide +kernel : ∀ t : Fin grid0.N, win0_3.index t 0 = 0 ∧ win0_3.index t 1 = t.val % 8)

theorem fixIdx4 : ∀ t : Fin cfg0.N, win0_4.index t 0 = 0 ∧ win0_4.index t 1 = 0 :=
  (by decide +kernel : ∀ t : Fin grid0.N, win0_4.index t 0 = 0 ∧ win0_4.index t 1 = 0)
theorem fixIdx5 : ∀ t : Fin cfg0.N, win0_5.index t 0 = 0 ∧ win0_5.index t 1 = 0 :=
  (by decide +kernel : ∀ t : Fin grid0.N, win0_5.index t 0 = 0 ∧ win0_5.index t 1 = 0)

theorem kCoord : ∀ t : Fin cfg0.N, ((grid0.coords t) 1).val = t.val % 8 :=
  (by decide +kernel : ∀ t : Fin grid0.N, ((grid0.coords t) 1).val = t.val % 8)

section
variable (V : (c : Dev nD) → (b : Ref sig .tc) → Buf (Elt Ideal) ((c : Thread nD τ).loc b))

abbrev uArr (c : Dev nD) : Arr := V c main_arg0
abbrev wArr (c : Dev nD) : Arr := V c main_arg1
abbrev gMat (c : Dev nD) : Mat := V c main_v0
abbrev bMat (c : Dev nD) : Mat := V c main_v1
abbrev pRow (c : Dev nD) : Row := V c main_arg4
abbrev qRow (c : Dev nD) : Row := V c main_arg5

abbrev uBlk (c : Dev nD) (t : Fin cfg0.N) : FVec Ideal S128x4096 .f32 := iblk0 V c 0 t
abbrev wBlk (c : Dev nD) (t : Fin cfg0.N) : FVec Ideal S128x4096 .f32 := iblk0 V c 1 t
abbrev gBlk (c : Dev nD) (t : Fin cfg0.N) : FVec Ideal S4096x512 .bf16 := iblk0 V c 2 t
abbrev bBlk (c : Dev nD) (t : Fin cfg0.N) : FVec Ideal S4096x512 .bf16 := iblk0 V c 3 t
abbrev pBlk (c : Dev nD) (t : Fin cfg0.N) : FVec Ideal S1x4096 .f32 := iblk0 V c 4 t
abbrev qBlk (c : Dev nD) (t : Fin cfg0.N) : FVec Ideal S1x4096 .f32 := iblk0 V c 5 t

theorem uBlk_apply (c : Dev nD) (t : Fin cfg0.N) (r : Fin 128) (K : Fin 4096) (p : Fin 1024) (hp : p.val = 128 * (t.val / 8) + r.val) :
    uBlk V c t (ix2 r K) = uArr V c (ix2 p K) := by
  have hi := rowIdx0 t
  show iblk0 V c 0 t (ix2 r K) = _
  unfold iblk0
  rw [View.read_apply]
  show V c main_arg0 _ = V c main_arg0 _
  refine congrArg (V c main_arg0) (funext fun a => Fin.ext ?_)
  match a with
  | ⟨0, _⟩ => show win0_0.index t 0 * 128 + 1 * r.val = p.val; rw [hi.1, hp]; omega
  | ⟨1, _⟩ => show win0_0.index t 1 * 4096 + 1 * K.val = K.val; rw [hi.2]; omega

theorem wBlk_apply (c : Dev nD) (t : Fin cfg0.N) (r : Fin 128) (K : Fin 4096) (p : Fin 1024) (hp : p.val = 128 * (t.val / 8) + r.val) :
    wBlk V c t (ix2 r K) = wArr V c (ix2 p K) := by
  have hi := rowIdx1 t
  show iblk0 V c 1 t (ix2 r K) = _
  unfold iblk0
  rw [View.read_apply]
  show V c main_arg1 _ = V c main_arg1 _
  refine congrArg (V c main_arg1) (funext fun a => Fin.ext ?_)
  match a with
  | ⟨0, _⟩ => show win0_1.index t 0 * 128 + 1 * r.val = p.val; rw [hi.1, hp]; omega
  | ⟨1, _⟩ => show win0_1.index t 1 * 4096 + 1 * K.val = K.val; rw [hi.2]; omega

theorem gBlk_apply (c : Dev nD) (t : Fin cfg0.N) (q : Fin 4096) (j : Fin 512) (K : Fin 4096) (hK : K.val = 512 * (t.val % 8) + j.val) :
    gBlk V c t (ix2 q j) = gMat V c (ix2 q K) := by
  have hi := colIdx2 t
  show iblk0 V c 2 t (ix2 q j) = _
  unfold iblk0
  rw [View.read_apply]
  show V c main_v0 _ = V c main_v0 _
  refine congrArg (V c main_v0) (funext fun a => Fin.ext ?_)
  match a with
  | ⟨0, _⟩ => show win0_2.index t 0 * 4096 + 1 * q.val = q.val; rw [hi.1]; omega
  | ⟨1, _⟩ => show win0_2.index t 1 * 512 + 1 * j.val = K.val; rw [hi.2, hK]; omega

theorem bBlk_apply (c : Dev nD) (t : Fin cfg0.N) (q : Fin 4096) (j : Fin 512) (K : Fin 4096) (hK : K.val = 512 * (t.val % 8) + j.val) :
    bBlk V c t (ix2 q j) = bMat V c (ix2 q K) := by
  have hi := colIdx3 t
  show iblk0 V c 3 t (ix2 q j) = _
  unfold iblk0
  rw [View.read_apply]
  show V c main_v1 _ = V c main_v1 _
  refine congrArg (V c main_v1) (funext fun a => Fin.ext ?_)
  match a with
  | ⟨0, _⟩ => show win0_3.index t 0 * 4096 + 1 * q.val = q.val; rw [hi.1]; omega
  | ⟨1, _⟩ => show win0_3.index t 1 * 512 + 1 * j.val = K.val; rw [hi.2, hK]; omega

theorem pBlk_apply (c : Dev nD) (t : Fin cfg0.N) (q : Fin 4096) :
    pBlk V c t (ix2 (0 : Fin 1) q) = pRow V c (ix2 (0 : Fin 1) q) := by
  have hi := fixIdx4 t
  show iblk0 V c 4 t (ix2 (0 : Fin 1) q) = _
  unfold iblk0
  rw [View.read_apply]
  show V c main_arg4 _ = V c main_arg4 _
  refine congrArg (V c main_arg4) (funext fun a => Fin.ext ?_)
  match a with
  | ⟨0, _⟩ => show win0_4.index t 0 * 1 + 1 * 0 = 0; rw [hi.1]
  | ⟨1, _⟩ => show win0_4.index t 1 * 4096 + 1 * q.val = q.val; rw [hi.2]; omega
theorem qBlk_apply (c : Dev nD) (t : Fin cfg0.N) (q : Fin 4096) :
    qBlk V c t (ix2 (0 : Fin 1) q) = qRow V c (ix2 (0 : Fin 1) q) := by
  have hi := fixIdx5 t
  show iblk0 V c 5 t (ix2 (0 : Fin 1) q) = _
  unfold iblk0
  rw [View.read_apply]
  show V c main_arg5 _ = V c main_arg5 _
  refine congrArg (V c main_arg5) (funext fun a => Fin.ext ?_)
  match a with
  | ⟨0, _⟩ => show win0_5.index t 0 * 1 + 1 * 0 = 0; rw [hi.1]
  | ⟨1, _⟩ => show win0_5.index t 1 * 4096 + 1 * q.val = q.val; rw [hi.2]; omega

abbrev upd0 (c : Dev nD) (t : Fin cfg0.N) (s : FVec Ideal S128x4096 .f32) : FVec Ideal S128x4096 .f32 :=
  k0_pay13 (F := Ideal) (colBlk (F := Ideal) (grid0.coords t) (uBlk V c t)) (gBlk V c t) s
abbrev upd1 (c : Dev nD) (t : Fin cfg0.N) (s : FVec Ideal S128x4096 .f32) : FVec Ideal S128x4096 .f32 :=
  k0_pay14 (F := Ideal) (colBlk (F := Ideal) (grid0.coords t) (wBlk V c t)) (gBlk V c t) s
abbrev upd2 (c : Dev nD) (t : Fin cfg0.N) (s : FVec Ideal S128x4096 .f32) : FVec Ideal S128x4096 .f32 :=
  k0_pay1 (F := Ideal) (k0_pay15 (F := Ideal) (colBlk (F := Ideal) (grid0.coords t) (uBlk V c t)) (bBlk V c t) s)
abbrev upd3 (c : Dev nD) (t : Fin cfg0.N) (s : FVec Ideal S128x4096 .f32) : FVec Ideal S128x4096 .f32 :=
  k0_pay2 (F := Ideal) (k0_pay10 (F := Ideal) (colBlk (F := Ideal) (grid0.coords t) (wBlk V c t))) (k0_pay12 (F := Ideal) (bBlk V c t)) s

abbrev prev (c : Dev nD) (t : Fin cfg0.N) : FVec Ideal S128x4096 .f32 × FVec Ideal S128x4096 .f32 × FVec Ideal S128x4096 .f32 × FVec Ideal S128x4096 .f32 :=
  scAt0 V c (t.val - 1) (pred_lt0 t)

theorem scA (c : Dev nD) (t : Fin cfg0.N) (h0 : t.val % 8 = 0) (h1 : ¬t.val % 8 = 7) :
    scAt0 V c t.val t.isLt
      = (upd0 V c t (k0_pay5 (F := Ideal)),
         upd1 V c t (k0_pay6 (F := Ideal)),
         upd2 V c t (k0_pay7 (F := Ideal)),
         upd3 V c t (k0_pay8 (F := Ideal))) :=
  (scAt0_A V c t h0 h1).trans
    (congrArg₂ Prod.mk (pieceA_0 (F := Ideal) ..)
      (congrArg₂ Prod.mk (pieceA_1 (F := Ideal) ..)
        (congrArg₂ Prod.mk (pieceA_2 (F := Ideal) ..)
          (pieceA_3 (F := Ideal) ..))))

theorem scB (c : Dev nD) (t : Fin cfg0.N) (h0 : ¬t.val % 8 = 0) (h1 : ¬t.val % 8 = 7) :
    scAt0 V c t.val t.isLt
      = (upd0 V c t (prev V c t).1,
         upd1 V c t (prev V c t).2.1,
         upd2 V c t (prev V c t).2.2.1,
         upd3 V c t (prev V c t).2.2.2) :=
  (scAt0_B V c t h0 h1).trans
    (congrArg₂ Prod.mk (pieceB_0 (F := Ideal) ..)
      (congrArg₂ Prod.mk (pieceB_1 (F := Ideal) ..)
        (congrArg₂ Prod.mk (pieceB_2 (F := Ideal) ..)
          (pieceB_3 (F := Ideal) ..))))

theorem scC (c : Dev nD) (t : Fin cfg0.N) (h0 : ¬t.val % 8 = 0) (h1 : t.val % 8 = 7) :
    scAt0 V c t.val t.isLt
      = (upd0 V c t (prev V c t).1,
         upd1 V c t (prev V c t).2.1,
         upd2 V c t (prev V c t).2.2.1,
         upd3 V c t (prev V c t).2.2.2) :=
  (scAt0_C V c t h0 h1).trans
    (congrArg₂ Prod.mk (pieceC_S0 (F := Ideal) ..)
      (congrArg₂ Prod.mk (pieceC_S1 (F := Ideal) ..)
        (congrArg₂ Prod.mk (pieceC_S2 (F := Ideal) ..)
          (pieceC_S3 (F := Ideal) ..))))

theorem outP_eq (c : Dev nD) (t : Fin cfg0.N) (h0 : ¬t.val % 8 = 0) (h1 : t.val % 8 = 7) :
    outAt0_6 V c t = k0_pay3 (F := Ideal) (uBlk V c t) (wBlk V c t) (upd0 V c t (prev V c t).1) (upd1 V c t (prev V c t).2.1) (upd2 V c t (prev V c t).2.2.1) (upd3 V c t (prev V c t).2.2.2) (pBlk V c t) :=
  (outAt0_6_C V c t h0 h1).trans (pieceC_6 (F := Ideal) ..)

theorem outQ_eq (c : Dev nD) (t : Fin cfg0.N) (h0 : ¬t.val % 8 = 0) (h1 : t.val % 8 = 7) :
    outAt0_7 V c t = k0_pay4 (F := Ideal) (uBlk V c t) (wBlk V c t) (upd0 V c t (prev V c t).1) (upd1 V c t (prev V c t).2.1) (upd2 V c t (prev V c t).2.2.1) (upd3 V c t (prev V c t).2.2.2) (qBlk V c t) :=
  (outAt0_7_C V c t h0 h1).trans (pieceC_7 (F := Ideal) ..)

end

end Cert.KernelIdeal.FrV0

end
-- ==== Proof.LibDotRows.lean ====
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem lhs1 (i : (⟨2, ![M, N]⟩ : Shape).Idx) (q : (DotDims.transposedRhs M K N).contr.Idx) :
    ((DotDims.transposedRhs M K N).lhsIdx i q 1).val
      = (q ⟨0, Nat.lt_of_lt_of_eq Nat.one_pos (Eq.symm (rfl : (DotDims.transposedRhs M K N).contr.rank = 1))⟩).val :=
  (DotDims.transposedRhs M K N).lhsIdx_val_of_single rfl i q

theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem rhs1 (i : (⟨2, ![M, N]⟩ : Shape).Idx) (q : (DotDims.transposedRhs M K N).contr.Idx) :
    ((DotDims.transposedRhs M K N).rhsIdx i q 1).val
      = (q ⟨0, Nat.lt_of_lt_of_eq Nat.one_pos (Eq.symm (rfl : (DotDims.transposedRhs M K N).contr.rank = 1))⟩).val :=
  (DotDims.transposedRhs M K N).rhsIdx_val_of_single rfl i q

theorem sum_contr {φ₁ φ₂ : FTy} (L : FVec Ideal ⟨2, ![M, K]⟩ φ₁) (W : FVec Ideal ⟨2, ![N, K]⟩ φ₂) (p : Fin M) (q : Fin N) :
    (∑ k : (DotDims.transposedRhs M K N).contr.Idx,
        L ((DotDims.transposedRhs M K N).lhsIdx (ix2 p q) k) * W ((DotDims.transposedRhs M K N).rhsIdx (ix2 p q) k))
      = ∑ k : Fin K, L (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

theorem matmul_zero_apply {φ₁ φ₂ : FTy} (prec : Option ContractPrecision) (L : FVec Ideal ⟨2, ![M, K]⟩ φ₁)
    (W : FVec Ideal ⟨2, ![N, K]⟩ φ₂) (p : Fin M) (q : Fin N) :
    FloatOps.matmul (DotDims.transposedRhs M K N) prec L W (constant ⟨2, ![M, N]⟩ .f32 0x00000000#32) (ix2 p q)
      = ∑ k : Fin K, L (ix2 p k) * W (ix2 q k) := by
  rw [Ideal.matmul_constant_zero_apply]
  exact sum_contr L W p q

theorem dotGeneral_apply {φ₁ φ₂ : FTy} (prec : Option ContractPrecision) (sched : HostSchedule) (L : FVec Ideal ⟨2, ![M, K]⟩ φ₁)
    (W : FVec Ideal ⟨2, ![N, K]⟩ φ₂) (p : Fin M) (q : Fin N) :
    FloatOps.dotGeneral (DotDims.transposedRhs M K N) prec sched L W (ix2 p q) = ∑ k : Fin K, L (ix2 p k) * W (ix2 q k) := by
  rw [Ideal.dotGeneral_apply]
  exact sum_contr L W p q

end Cert.DotRows

end
-- ==== Proof.LibRowBias.lean ====
import Idealize.ShloMosaic.Lib.Pipeline.Value
import Idealize.ShloMosaic.Lib.ValueIdx

noncomputable section

namespace Cert.RowBias

open Idealize.ShloMosaic Idealize.ShloMosaic.ValueIdx

variable {α : Type} {M n : Nat}

theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.KernelIdeal.Value0.lean ====
import proofs.«181483_j14396730376920_1_alg».proof.Proof.KernelIdeal.Value0Points
import proofs.«181483_j14396730376920_1_alg».proof.Proof.Spec
import proofs.«181483_j14396730376920_1_alg».proof.Proof.LibDotRows
import proofs.«181483_j14396730376920_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.FrV0

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Fr

section Payloads

theorem rst0_apply (y : S128x4096.Idx) : (k0_pay5 (F := Ideal)) y = 0 := by
  unfold k0_pay5
  simp only [shapeCast_self]
  exact Ideal.ofBits_zero_f32
theorem rst1_apply (y : S128x4096.Idx) : (k0_pay6 (F := Ideal)) y = 0 := by
  unfold k0_pay6
  simp only [shapeCast_self]
  exact Ideal.ofBits_zero_f32
theorem rst2_apply (y : S128x4096.Idx) : (k0_pay7 (F := Ideal)) y = 0 := by
  unfold k0_pay7
  simp only [shapeCast_self]
  exact Ideal.ofBits_zero_f32
theorem rst3_apply (y : S128x4096.Idx) : (k0_pay8 (F := Ideal)) y = 0 := by
  unfold k0_pay8
  simp only [shapeCast_self]
  exact Ideal.ofBits_zero_f32

theorem upd0_apply (xk : FVec Ideal S128x512 .f32) (mb : FVec Ideal S4096x512 .bf16) (s : FVec Ideal S128x4096 .f32)
    (r : Fin 128) (q : Fin 4096) :
    k0_pay13 (F := Ideal) xk mb s (ix2 r q) = s (ix2 r q) + ∑ j : Fin 512, xk (ix2 r j) * mb (ix2 q j) := by
  unfold k0_pay13 k0_pay9 k0_pay11
  simp only [shapeCast_self]
  exact congrArg (s (ix2 r q) + ·) (Cert.DotRows.matmul_zero_apply (M := 128) (K := 512) (N := 4096) none (truncf .bf16 xk bitsLt_bf16_f32) mb r q)

theorem upd1_apply (xk : FVec Ideal S128x512 .f32) (mb : FVec Ideal S4096x512 .bf16) (s : FVec Ideal S128x4096 .f32)
    (r : Fin 128) (q : Fin 4096) :
    k0_pay14 (F := Ideal) xk mb s (ix2 r q) = s (ix2 r q) + ∑ j : Fin 512, xk (ix2 r j) * mb (ix2 q j) := by
  unfold k0_pay14 k0_pay10 k0_pay11
  simp only [shapeCast_self]
  exact congrArg (s (ix2 r q) + ·) (Cert.DotRows.matmul_zero_apply (M := 128) (K := 512) (N := 4096) none (truncf .bf16 xk bitsLt_bf16_f32) mb r q)

theorem upd2_apply (xk : FVec Ideal S128x512 .f32) (mb : FVec Ideal S4096x512 .bf16) (s : FVec Ideal S128x4096 .f32)
    (r : Fin 128) (q : Fin 4096) :
    k0_pay1 (F := Ideal) (k0_pay15 (F := Ideal) xk mb s) (ix2 r q) = s (ix2 r q) + ∑ j : Fin 512, xk (ix2 r j) * mb (ix2 q j) := by
  unfold k0_pay1 k0_pay15 k0_pay9 k0_pay12
  simp only [shapeCast_self]
  exact congrArg (s (ix2 r q) + ·) (Cert.DotRows.matmul_zero_apply (M := 128) (K := 512) (N := 4096) none (truncf .bf16 xk bitsLt_bf16_f32) mb r q)

theorem upd3_apply (xk : FVec Ideal S128x512 .f32) (mb : FVec Ideal S4096x512 .bf16) (s : FVec Ideal S128x4096 .f32)
    (r : Fin 128) (q : Fin 4096) :
    k0_pay2 (F := Ideal) (k0_pay10 (F := Ideal) xk) (k0_pay12 (F := Ideal) mb) s (ix2 r q) = s (ix2 r q) + ∑ j : Fin 512, xk (ix2 r j) * mb (ix2 q j) := by
  unfold k0_pay2 k0_pay10 k0_pay12
  simp only [shapeCast_self]
  exact congrArg (s (ix2 r q) + ·) (Cert.DotRows.matmul_zero_apply (M := 128) (K := 512) (N := 4096) none (truncf .bf16 xk bitsLt_bf16_f32) mb r q)

theorem outP_apply (u w a0 a1 a2 a3 : FVec Ideal S128x4096 .f32) (b : FVec Ideal S1x4096 .f32) (r : Fin 128) (q : Fin 4096) :
    (k0_pay3 (F := Ideal) u w a0 a1 a2 a3 b (ix2 r q) : EReal)
      = u (ix2 r q) * a0 (ix2 r q) + w (ix2 r q) * a1 (ix2 r q) + w (ix2 r q) * a2 (ix2 r q) - u (ix2 r q) * a3 (ix2 r q)
        + b (ix2 (0 : Fin 1) q) := by
  unfold k0_pay3
  exact congrArg (u (ix2 r q) * a0 (ix2 r q) + w (ix2 r q) * a1 (ix2 r q) + w (ix2 r q) * a2 (ix2 r q) - u (ix2 r q) * a3 (ix2 r q) + ·)
    (Cert.RowBias.rows_apply (M := 128) (n := 4096) b broadcasts_S1x4096_S128x4096 r q)

theorem outQ_apply (u w a0 a1 a2 a3 : FVec Ideal S128x4096 .f32) (b : FVec Ideal S1x4096 .f32) (r : Fin 128) (q : Fin 4096) :
    (k0_pay4 (F := Ideal) u w a0 a1 a2 a3 b (ix2 r q) : EReal)
      = w (ix2 r q) * a0 (ix2 r q) - u (ix2 r q) * a1 (ix2 r q) - u (ix2 r q) * a2 (ix2 r q) - w (ix2 r q) * a3 (ix2 r q)
        + b (ix2 (0 : Fin 1) q) := by
  unfold k0_pay4
  exact congrArg (w (ix2 r q) * a0 (ix2 r q) - u (ix2 r q) * a1 (ix2 r q) - u (ix2 r q) * a2 (ix2 r q) - w (ix2 r q) * a3 (ix2 r q) + ·)
    (Cert.RowBias.rows_apply (M := 128) (n := 4096) b broadcasts_S1x4096_S128x4096 r q)

end Payloads

section RowSums

open Cert.Spec

def colProd (x : Arr) (M : Mat) (P : ℕ) (q : Fin 4096) (K : ℕ) : EReal :=
  if h : P < 1024 ∧ K < 4096 then x (ix2 ⟨P, h.1⟩ ⟨K, h.2⟩) * M (ix2 q ⟨K, h.2⟩) else 0

def rowUpto (x : Arr) (M : Mat) (P : ℕ) (q : Fin 4096) (n : ℕ) : EReal := ∑ K ∈ Finset.range n, colProd x M P q K

theorem rowUpto_none (x : Arr) (M : Mat) (P : ℕ) (q : Fin 4096) : rowUpto x M P q (512 * 0) = 0 := Finset.sum_range_zero _

theorem rowUpto_next (x : Arr) (M : Mat) (P : ℕ) (q : Fin 4096) (n : ℕ) :
    rowUpto x M P q (n + 512) = rowUpto x M P q n + ∑ j : Fin 512, colProd x M P q (n + j.val) := by
  unfold rowUpto
  rw [Finset.sum_range_add, Finset.sum_range (fun j => colProd x M P q (n + j))]

theorem rowUpto_all (x : Arr) (M : Mat) (p : Fin 1024) (q : Fin 4096) : rowUpto x M p.val q 4096 = rowDot x M p q := by
  unfold rowUpto rowDot
  rw [Finset.sum_range (fun K => colProd x M p.val q K)]
  refine Finset.sum_congr rfl fun K _ => ?_
  unfold colProd
  rw [dif_pos ⟨p.isLt, K.isLt⟩]

theorem acc_step (x : Arr) (M : Mat) (xb : FVec Ideal S128x4096 .f32) (mb : FVec Ideal S4096x512 .bf16) (i : grid0.Coords)
    (m k : ℕ) (hm : m < 8) (hk : k < 8) (hi : (i 1).val = k)
    (hx : ∀ (r : Fin 128) (K : Fin 4096) (p : Fin 1024), p.val = 128 * m + r.val → xb (ix2 r K) = x (ix2 p K))
    (hM : ∀ (q : Fin 4096) (j : Fin 512) (K : Fin 4096), K.val = 512 * k + j.val → mb (ix2 q j) = M (ix2 q K))
    (s : EReal) (r : Fin 128) (q : Fin 4096) (hs : s = rowUpto x M (128 * m + r.val) q (512 * k)) :
    s + ∑ j : Fin 512, colBlk (F := Ideal) i xb (ix2 r j) * mb (ix2 q j) = rowUpto x M (128 * m + r.val) q (512 * k + 512) := by
  rw [rowUpto_next, hs]
  refine congrArg (rowUpto x M (128 * m + r.val) q (512 * k) + ·) (Finset.sum_congr rfl fun j _ => ?_)
  have hr := r.isLt
  have hj := j.isLt
  have hP : 128 * m + r.val < 1024 := by omega
  have hK : 512 * k + j.val < 4096 := by omega
  unfold colProd
  rw [dif_pos ⟨hP, hK⟩, ← hx r ⟨512 * k + j.val, hK⟩ ⟨128 * m + r.val, hP⟩ rfl, ← hM q j ⟨512 * k + j.val, hK⟩ rfl]
  refine congrArg (· * mb (ix2 q j)) ?_
  show xb _ = xb _
  refine congrArg xb (funext fun a => Fin.ext ?_)
  match a with
  | ⟨0, _⟩ => show (k0_off1 i) 0 + 1 * r.val = r.val; rw [k0_off1_eq]; show 0 + 1 * r.val = r.val; omega
  | ⟨1, _⟩ => show (k0_off1 i) 1 + 1 * j.val = 512 * k + j.val; rw [k0_off1_eq]; show 512 * (i 1).val + 1 * j.val = _; rw [hi]; omega

section Steps

variable (x : Arr) (M : Mat) (xb : FVec Ideal S128x4096 .f32) (mb : FVec Ideal S4096x512 .bf16) (i : grid0.Coords)
  (m k : ℕ) (hm : m < 8) (hk : k < 8) (hi : (i 1).val = k)
  (hx : ∀ (r : Fin 128) (K : Fin 4096) (p : Fin 1024), p.val = 128 * m + r.val → xb (ix2 r K) = x (ix2 p K))
  (hM : ∀ (q : Fin 4096) (j : Fin 512) (K : Fin 4096), K.val = 512 * k + j.val → mb (ix2 q j) = M (ix2 q K))
  (s : FVec Ideal S128x4096 .f32) (r : Fin 128) (q : Fin 4096) (hs : s (ix2 r q) = rowUpto x M (128 * m + r.val) q (512 * k))
include hm hk hi hx hM hs

theorem step0 : k0_pay13 (F := Ideal) (colBlk (F := Ideal) i xb) mb s (ix2 r q) = rowUpto x M (128 * m + r.val) q (512 * k + 512) :=
  (upd0_apply (colBlk (F := Ideal) i xb) mb s r q).trans (acc_step x M xb mb i m k hm hk hi hx hM (s (ix2 r q)) r q hs)
theorem step1 : k0_pay14 (F := Ideal) (colBlk (F := Ideal) i xb) mb s (ix2 r q) = rowUpto x M (128 * m + r.val) q (512 * k + 512) :=
  (upd1_apply (colBlk (F := Ideal) i xb) mb s r q).trans (acc_step x M xb mb i m k hm hk hi hx hM (s (ix2 r q)) r q hs)
theorem step2 : k0_pay1 (F := Ideal) (k0_pay15 (F := Ideal) (colBlk (F := Ideal) i xb) mb s) (ix2 r q) = rowUpto x M (128 * m + r.val) q (512 * k + 512) :=
  (upd2_apply (colBlk (F := Ideal) i xb) mb s r q).trans (acc_step x M xb mb i m k hm hk hi hx hM (s (ix2 r q)) r q hs)
theorem step3 : k0_pay2 (F := Ideal) (k0_pay10 (F := Ideal) (colBlk (F := Ideal) i xb)) (k0_pay12 (F := Ideal) mb) s (ix2 r q) = rowUpto x M (128 * m + r.val) q (512 * k + 512) :=
  (upd3_apply (colBlk (F := Ideal) i xb) mb s r q).trans (acc_step x M xb mb i m k hm hk hi hx hM (s (ix2 r q)) r q hs)

end Steps

end RowSums

section Values

open Cert.Spec

variable (V : (c : Dev nD) → (b : Ref sig .tc) → Buf (Elt Ideal) ((c : Thread nD τ).loc b))

theorem acc_eq (c : Dev nD) : ∀ (n : ℕ) (hn : n < cfg0.N) (r : Fin 128) (q : Fin 4096),
    (scAt0 V c n hn).1 (ix2 r q) = rowUpto (uArr V c) (gMat V c) (128 * (n / 8) + r.val) q (512 * (n % 8) + 512)
    ∧ (scAt0 V c n hn).2.1 (ix2 r q) = rowUpto (wArr V c) (gMat V c) (128 * (n / 8) + r.val) q (512 * (n % 8) + 512)
    ∧ (scAt0 V c n hn).2.2.1 (ix2 r q) = rowUpto (uArr V c) (bMat V c) (128 * (n / 8) + r.val) q (512 * (n % 8) + 512)
    ∧ (scAt0 V c n hn).2.2.2 (ix2 r q) = rowUpto (wArr V c) (bMat V c) (128 * (n / 8) + r.val) q (512 * (n % 8) + 512) := by
  intro n
  induction n using Nat.strong_induction_on with
  | _ n ih =>
    intro hn r q
    have hN : n < 64 := lt_of_lt_of_eq hn (show cfg0.N = 64 from N_0)
    have hm : n / 8 < 8 := by omega
    have hk : n % 8 < 8 := by omega
    have hc : ((grid0.coords ⟨n, hn⟩) 1).val = n % 8 := kCoord ⟨n, hn⟩
    have hu : ∀ (r : Fin 128) (K : Fin 4096) (p : Fin 1024), p.val = 128 * (n / 8) + r.val → uBlk V c ⟨n, hn⟩ (ix2 r K) = uArr V c (ix2 p K) :=
      fun r K p hp => uBlk_apply V c ⟨n, hn⟩ r K p hp
    have hw : ∀ (r : Fin 128) (K : Fin 4096) (p : Fin 1024), p.val = 128 * (n / 8) + r.val → wBlk V c ⟨n, hn⟩ (ix2 r K) = wArr V c (ix2 p K) :=
      fun r K p hp => wBlk_apply V c ⟨n, hn⟩ r K p hp
    have hg : ∀ (q : Fin 4096) (j : Fin 512) (K : Fin 4096), K.val = 512 * (n % 8) + j.val → gBlk V c ⟨n, hn⟩ (ix2 q j) = gMat V c (ix2 q K) :=
      fun q j K hK => gBlk_apply V c ⟨n, hn⟩ q j K hK
    have hb : ∀ (q : Fin 4096) (j : Fin 512) (K : Fin 4096), K.val = 512 * (n % 8) + j.val → bBlk V c ⟨n, hn⟩ (ix2 q j) = bMat V c (ix2 q K) :=
      fun q j K hK => bBlk_apply V c ⟨n, hn⟩ q j K hK
    by_cases h0 : n % 8 = 0
    · have h1 : ¬n % 8 = 7 := by omega
      rw [show scAt0 V c n hn = _ from scA V c ⟨n, hn⟩ h0 h1]
      dsimp only
      exact ⟨step0 (uArr V c) (gMat V c) (uBlk V c ⟨n, hn⟩) (gBlk V c ⟨n, hn⟩) (grid0.coords ⟨n, hn⟩) (n / 8) (n % 8) hm hk hc hu hg (k0_pay5 (F := Ideal)) r q (by rw [h0, rowUpto_none]; exact rst0_apply _),
        step1 (wArr V c) (gMat V c) (wBlk V c ⟨n, hn⟩) (gBlk V c ⟨n, hn⟩) (grid0.coords ⟨n, hn⟩) (n / 8) (n % 8) hm hk hc hw hg (k0_pay6 (F := Ideal)) r q (by rw [h0, rowUpto_none]; exact rst1_apply _),
        step2 (uArr V c) (bMat V c) (uBlk V c ⟨n, hn⟩) (bBlk V c ⟨n, hn⟩) (grid0.coords ⟨n, hn⟩) (n / 8) (n % 8) hm hk hc hu hb (k0_pay7 (F := Ideal)) r q (by rw [h0, rowUpto_none]; exact rst2_apply _),
        step3 (wArr V c) (bMat V c) (wBlk V c ⟨n, hn⟩) (bBlk V c ⟨n, hn⟩) (grid0.coords ⟨n, hn⟩) (n / 8) (n % 8) hm hk hc hw hb (k0_pay8 (F := Ideal)) r q (by rw [h0, rowUpto_none]; exact rst3_apply _)⟩
    · have ihp := ih (n - 1) (by omega) (pred_lt0 ⟨n, hn⟩) r q
      have e1 : (n - 1) / 8 = n / 8 := by omega
      have e2 : 512 * ((n - 1) % 8) + 512 = 512 * (n % 8) := by omega
      rw [e1, e2] at ihp
      obtain ⟨i0, i1, i2, i3⟩ := ihp
      have fin : (upd0 V c ⟨n, hn⟩ (prev V c ⟨n, hn⟩).1 (ix2 r q) = rowUpto (uArr V c) (gMat V c) (128 * (n / 8) + r.val) q (512 * (n % 8) + 512))
          ∧ (upd1 V c ⟨n, hn⟩ (prev V c ⟨n, hn⟩).2.1 (ix2 r q) = rowUpto (wArr V c) (gMat V c) (128 * (n / 8) + r.val) q (512 * (n % 8) + 512))
          ∧ (upd2 V c ⟨n, hn⟩ (prev V c ⟨n, hn⟩).2.2.1 (ix2 r q) = rowUpto (uArr V c) (bMat V c) (128 * (n / 8) + r.val) q (512 * (n % 8) + 512))
          ∧ (upd3 V c ⟨n, hn⟩ (prev V c ⟨n, hn⟩).2.2.2 (ix2 r q) = rowUpto (wArr V c) (bMat V c) (128 * (n / 8) + r.val) q (512 * (n % 8) + 512)) :=
        ⟨step0 (uArr V c) (gMat V c) (uBlk V c ⟨n, hn⟩) (gBlk V c ⟨n, hn⟩) (grid0.coords ⟨n, hn⟩) (n / 8) (n % 8) hm hk hc hu hg (prev V c ⟨n, hn⟩).1 r q i0,
          step1 (wArr V c) (gMat V c) (wBlk V c ⟨n, hn⟩) (gBlk V c ⟨n, hn⟩) (grid0.coords ⟨n, hn⟩) (n / 8) (n % 8) hm hk hc hw hg (prev V c ⟨n, hn⟩).2.1 r q i1,
          step2 (uArr V c) (bMat V c) (uBlk V c ⟨n, hn⟩) (bBlk V c ⟨n, hn⟩) (grid0.coords ⟨n, hn⟩) (n / 8) (n % 8) hm hk hc hu hb (prev V c ⟨n, hn⟩).2.2.1 r q i2,
          step3 (wArr V c) (bMat V c) (wBlk V c ⟨n, hn⟩) (bBlk V c ⟨n, hn⟩) (grid0.coords ⟨n, hn⟩) (n / 8) (n % 8) hm hk hc hw hb (prev V c ⟨n, hn⟩).2.2.2 r q i3⟩
      by_cases h1 : n % 8 = 7
      · rw [show scAt0 V c n hn = _ from scC V c ⟨n, hn⟩ h0 h1]
        exact fin
      · rw [show scAt0 V c n hn = _ from scB V c ⟨n, hn⟩ h0 h1]
        exact fin

theorem acc_full (c : Dev nD) (t : Fin cfg0.N) (h1 : t.val % 8 = 7) (r : Fin 128) (q : Fin 4096) (p : Fin 1024)
    (hp : p.val = 128 * (t.val / 8) + r.val) :
    (scAt0 V c t.val t.isLt).1 (ix2 r q) = rowDot (uArr V c) (gMat V c) p q
    ∧ (scAt0 V c t.val t.isLt).2.1 (ix2 r q) = rowDot (wArr V c) (gMat V c) p q
    ∧ (scAt0 V c t.val t.isLt).2.2.1 (ix2 r q) = rowDot (uArr V c) (bMat V c) p q
    ∧ (scAt0 V c t.val t.isLt).2.2.2 (ix2 r q) = rowDot (wArr V c) (bMat V c) p q := by
  obtain ⟨a0, a1, a2, a3⟩ := acc_eq V c t.val t.isLt r q
  rw [h1, ← hp] at a0 a1 a2 a3
  exact ⟨a0.trans (rowUpto_all _ _ p q), a1.trans (rowUpto_all _ _ p q), a2.trans (rowUpto_all _ _ p q), a3.trans (rowUpto_all _ _ p q)⟩

theorem outP_vec (c : Dev nD) (t : Fin cfg0.N) (h0 : ¬t.val % 8 = 0) (h1 : t.val % 8 = 7) :
    outAt0_6 V c t = k0_pay3 (F := Ideal) (uBlk V c t) (wBlk V c t) (scAt0 V c t.val t.isLt).1 (scAt0 V c t.val t.isLt).2.1
      (scAt0 V c t.val t.isLt).2.2.1 (scAt0 V c t.val t.isLt).2.2.2 (pBlk V c t) := by
  rw [scC V c t h0 h1]
  exact outP_eq V c t h0 h1
theorem outQ_vec (c : Dev nD) (t : Fin cfg0.N) (h0 : ¬t.val % 8 = 0) (h1 : t.val % 8 = 7) :
    outAt0_7 V c t = k0_pay4 (F := Ideal) (uBlk V c t) (wBlk V c t) (scAt0 V c t.val t.isLt).1 (scAt0 V c t.val t.isLt).2.1
      (scAt0 V c t.val t.isLt).2.2.1 (scAt0 V c t.val t.isLt).2.2.2 (qBlk V c t) := by
  rw [scC V c t h0 h1]
  exact outQ_eq V c t h0 h1

theorem outP_at (c : Dev nD) (t : Fin cfg0.N) (h1 : t.val % 8 = 7) (r : Fin 128) (q : Fin 4096) (p : Fin 1024)
    (hp : p.val = 128 * (t.val / 8) + r.val) :
    (outAt0_6 V c t (ix2 r q) : EReal) = pPre (uArr V c) (wArr V c) (gMat V c) (bMat V c) (pRow V c) p q := by
  have h0 : ¬t.val % 8 = 0 := by omega
  obtain ⟨a0, a1, a2, a3⟩ := acc_full V c t h1 r q p hp
  rw [outP_vec V c t h0 h1]
  refine (outP_apply (uBlk V c t) (wBlk V c t) (scAt0 V c t.val t.isLt).1 (scAt0 V c t.val t.isLt).2.1 (scAt0 V c t.val t.isLt).2.2.1 (scAt0 V c t.val t.isLt).2.2.2 (pBlk V c t) r q).trans ?_
  rw [a0, a1, a2, a3, uBlk_apply V c t r q p hp, wBlk_apply V c t r q p hp, pBlk_apply V c t q]
  rfl

theorem outQ_at (c : Dev nD) (t : Fin cfg0.N) (h1 : t.val % 8 = 7) (r : Fin 128) (q : Fin 4096) (p : Fin 1024)
    (hp : p.val = 128 * (t.val / 8) + r.val) :
    (outAt0_7 V c t (ix2 r q) : EReal) = qPre (uArr V c) (wArr V c) (gMat V c) (bMat V c) (qRow V c) p q := by
  have h0 : ¬t.val % 8 = 0 := by omega
  obtain ⟨a0, a1, a2, a3⟩ := acc_full V c t h1 r q p hp
  rw [outQ_vec V c t h0 h1]
  refine (outQ_apply (uBlk V c t) (wBlk V c t) (scAt0 V c t.val t.isLt).1 (scAt0 V c t.val t.isLt).2.1 (scAt0 V c t.val t.isLt).2.2.1 (scAt0 V c t.val t.isLt).2.2.2 (qBlk V c t) r q).trans ?_
  rw [a0, a1, a2, a3, uBlk_apply V c t r q p hp, wBlk_apply V c t r q p hp, qBlk_apply V c t q]
  rfl

abbrev resP (c : Dev nD) : Arr := arrOf (pPre (uArr V c) (wArr V c) (gMat V c) (bMat V c) (pRow V c))
abbrev resQ (c : Dev nD) : Arr := arrOf (qPre (uArr V c) (wArr V c) (gMat V c) (bMat V c) (qRow V c))

theorem flushedP_eq (c : Dev nD) (t : Fin cfg0.N) (hf : (cfg0.win 6).flush t = true) :
    (dat0 V c).flushed 6 t = ((cfg0.win 6).blk t).view.read (Elt Ideal) (resP V c) := by
  have h1 : t.val % 8 = 7 := (flush0_6 t).mp hf
  have hN : t.val < 64 := lt_of_lt_of_eq t.isLt (show cfg0.N = 64 from N_0)
  have hi := rowIdx6 t
  show (cfg0.win 6).cut (grid0.coords t) ((dat0 V c).after 6 t) = _
  rw [after0_6]
  funext y
  rw [View.read_apply]
  have hy0 : (y 0).val < 128 := (y 0).isLt
  have hy1 : (y 1).val < 4096 := (y 1).isLt
  have hp : 128 * (t.val / 8) + (y 0).val < 1024 := by omega
  have eL : (cfg0.win 6).cut (grid0.coords t) (outAt0_6 V c t) y = outAt0_6 V c t (ix2 (⟨(y 0).val, hy0⟩ : Fin 128) (⟨(y 1).val, hy1⟩ : Fin 4096)) := by
    show outAt0_6 V c t _ = outAt0_6 V c t _
    refine congrArg (outAt0_6 V c t) (funext fun a => Fin.ext ?_)
    match a with
    | ⟨0, _⟩ => rfl
    | ⟨1, _⟩ => rfl
  have eR : ((cfg0.win 6).blk t).view.emb y = ix2 (⟨128 * (t.val / 8) + (y 0).val, hp⟩ : Fin 1024) (⟨(y 1).val, hy1⟩ : Fin 4096) := by
    refine funext fun a => Fin.ext ?_
    match a with
    | ⟨0, _⟩ => show win0_6.index t 0 * 128 + 1 * (y 0).val = 128 * (t.val / 8) + (y 0).val; rw [hi.1]; omega
    | ⟨1, _⟩ => show win0_6.index t 1 * 4096 + 1 * (y 1).val = (y 1).val; rw [hi.2]; omega
  refine eL.trans ?_
  rw [eR]
  exact outP_at V c t h1 ⟨(y 0).val, hy0⟩ ⟨(y 1).val, hy1⟩ ⟨128 * (t.val / 8) + (y 0).val, hp⟩ rfl

theorem flushedQ_eq (c : Dev nD) (t : Fin cfg0.N) (hf : (cfg0.win 7).flush t = true) :
    (dat0 V c).flushed 7 t = ((cfg0.win 7).blk t).view.read (Elt Ideal) (resQ V c) := by
  have h1 : t.val % 8 = 7 := (flush0_7 t).mp hf
  have hN : t.val < 64 := lt_of_lt_of_eq t.isLt (show cfg0.N = 64 from N_0)
  have hi := rowIdx7 t
  show (cfg0.win 7).cut (grid0.coords t) ((dat0 V c).after 7 t) = _
  rw [after0_7]
  funext y
  rw [View.read_apply]
  have hy0 : (y 0).val < 128 := (y 0).isLt
  have hy1 : (y 1).val < 4096 := (y 1).isLt
  have hp : 128 * (t.val / 8) + (y 0).val < 1024 := by omega
  have eL : (cfg0.win 7).cut (grid0.coords t) (outAt0_7 V c t) y = outAt0_7 V c t (ix2 (⟨(y 0).val, hy0⟩ : Fin 128) (⟨(y 1).val, hy1⟩ : Fin 4096)) := by
    show outAt0_7 V c t _ = outAt0_7 V c t _
    refine congrArg (outAt0_7 V c t) (funext fun a => Fin.ext ?_)
    match a with
    | ⟨0, _⟩ => rfl
    | ⟨1, _⟩ => rfl
  have eR : ((cfg0.win 7).blk t).view.emb y = ix2 (⟨128 * (t.val / 8) + (y 0).val, hp⟩ : Fin 1024) (⟨(y 1).val, hy1⟩ : Fin 4096) := by
    refine funext fun a => Fin.ext ?_
    match a with
    | ⟨0, _⟩ => show win0_7.index t 0 * 128 + 1 * (y 0).val = 128 * (t.val / 8) + (y 0).val; rw [hi.1]; omega
    | ⟨1, _⟩ => show win0_7.index t 1 * 4096 + 1 * (y 1).val = (y 1).val; rw [hi.2]; omega
  refine eL.trans ?_
  rw [eR]
  exact outQ_at V c t h1 ⟨(y 0).val, hy0⟩ ⟨(y 1).val, hy1⟩ ⟨128 * (t.val / 8) + (y 0).val, hp⟩ rfl

theorem coverP (c : Dev nD) (i : S1024x4096.Idx) :
    ∃ t : Fin cfg0.N, (cfg0.win 6).flush t = true ∧ i ∈ ((cfg0.win 6).blk t).view.set := by
  have hi0 : (i 0).val < 1024 := (i 0).isLt
  have hi1 : (i 1).val < 4096 := (i 1).isLt
  have hN : cfg0.N = 64 := N_0
  obtain ⟨t, ht⟩ : ∃ t : Fin cfg0.N, t.val = 8 * ((i 0).val / 128) + 7 := ⟨⟨8 * ((i 0).val / 128) + 7, by rw [hN]; omega⟩, rfl⟩
  have hidx := rowIdx6 t
  refine ⟨t, (flush0_6 t).mpr (by omega), ?_⟩
  show i ∈ ((View.whole main_v6_0).slice (win0_6.rect t)).set
  rw [View.set_slice_whole, Rect.mem_set_unit]
  intro a
  match a with
  | ⟨0, _⟩ =>
    show win0_6.index t 0 * 128 ≤ (i 0).val ∧ (i 0).val < win0_6.index t 0 * 128 + 128
    rw [hidx.1]; omega
  | ⟨1, _⟩ =>
    show win0_6.index t 1 * 4096 ≤ (i 1).val ∧ (i 1).val < win0_6.index t 1 * 4096 + 4096
    rw [hidx.2]; omega
theorem coverQ (c : Dev nD) (i : S1024x4096.Idx) :
    ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 64 := N_0
  obtain ⟨t, ht⟩ : ∃ t : Fin cfg0.N, t.val = 8 * ((i 0).val / 128) + 7 := ⟨⟨8 * ((i 0).val / 128) + 7, by rw [hN]; omega⟩, rfl⟩
  have hidx := rowIdx7 t
  refine ⟨t, (flush0_7 t).mpr (by omega), ?_⟩
  show i ∈ ((View.whole main_v6_1).slice (win0_7.rect t)).set
  rw [View.set_slice_whole, Rect.mem_set_unit]
  intro a
  match a with
  | ⟨0, _⟩ =>
    show win0_7.index t 0 * 128 ≤ (i 0).val ∧ (i 0).val < win0_7.index t 0 * 128 + 128
    rw [hidx.1]; omega
  | ⟨1, _⟩ =>
    show win0_7.index t 1 * 4096 ≤ (i 1).val ∧ (i 1).val < win0_7.index t 1 * 4096 + 4096
    rw [hidx.2]; omega

theorem value0_p (c : Dev nD) : (dat0 (F := Ideal) V c).arrAt 6 cfg0.N
    = Cert.Spec.arrOf (Cert.Spec.pPre (V c main_arg0) (V c main_arg1) (V c main_v0) (V c main_v1) (V c main_arg4)) :=
  (dat0 V c).arrAt_eq_of_cover 6 (resP V c) (flushedP_eq V c) (coverP c)

theorem value0_q (c : Dev nD) : (dat0 (F := Ideal) V c).arrAt 7 cfg0.N
    = Cert.Spec.arrOf (Cert.Spec.qPre (V c main_arg0) (V c main_arg1) (V c main_v0) (V c main_v1) (V c main_arg5)) :=
  (dat0 V c).arrAt_eq_of_cover 7 (resQ V c) (flushedQ_eq V c) (coverQ c)

end Values

end Cert.KernelIdeal.FrV0

end
-- ==== Proof.KernelIdeal.Value1.lean ====
import proofs.«181483_j14396730376920_1_alg».proof.Proof.KernelIdeal.Body1
import proofs.«181483_j14396730376920_1_alg».proof.Proof.Spec
import proofs.«181483_j14396730376920_1_alg».proof.Proof.LibDotRows
import proofs.«181483_j14396730376920_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

section Pieces
variable {F : FTy → Type} [FloatOps F]

theorem zero2 : (![0, 0] : Fin 2 → Nat) = fun _ => 0 := funext fun a => by fin_cases a <;> rfl

abbrev kblk (i : grid1.Coords) (x : Vec F S128x4096 .bf16) : Vec F S128x512 .bf16 :=
  View.ld x (Rect.unit (s := S128x4096) (k1_off1 i) S128x512.size (k1_off1_inb i))

variable (c : Dev nD) (i : grid1.Coords) (arg2 : Memref sig .tc .vmem S128x4096 .bf16) (harg2 : arg2.IsWhole) (arg3 : Memref sig .tc .vmem S128x4096 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S128x4096 .f32) (harg11 : arg11.IsWhole)
  (x0 x1 : Vec F S128x4096 .bf16) (x2 x3 : Vec F S4096x512 .bf16) (x4 x5 : Vec F S1x4096 .f32) (xs0 xs1 : Vec F S128x4096 .f32)

theorem pieceA_0 (hc0 : cond1_0 i) (hc1 : ¬cond1_1 i) :
    rdS (kernelRun1_A (F := F) c i arg2 harg2 arg3 harg3 arg4 harg4 arg5 harg5 arg6 harg6 arg7 harg7 arg8 harg8 arg9 harg9 arg10 harg10 arg11 harg11 hc0 hc1 x0 x1 x2 x3 x4 x5).1 = k1_pay3 (kblk i x0) x2 k1_pay1 := by
  unfold rdS
  rw [View.read_writes_eq_canon _ _ _ coverA1_0]
  unfold kernelRun1_A
  dsimp only
  sl_unfold_run_names
  rw [View.canon_cons_unit_zero (S := S128x4096) zero2, View.readCov_unit_zero (S := S128x4096) _ zero2]
  simp only [View.readAt_eq_ld, harg2.read_unread, harg3.read_unread, harg4.read_unread, harg5.read_unread, View.ld_unit_zero (S := S4096x512) zero2]

theorem pieceA_1 (hc0 : cond1_0 i) (hc1 : ¬cond1_1 i) :
    rdS (kernelRun1_A (F := F) c i arg2 harg2 arg3 harg3 arg4 harg4 arg5 harg5 arg6 harg6 arg7 harg7 arg8 harg8 arg9 harg9 arg10 harg10 arg11 harg11 hc0 hc1 x0 x1 x2 x3 x4 x5).2.1 = k1_pay4 (kblk i x1) x3 k1_pay2 := by
  unfold rdS
  rw [View.read_writes_eq_canon _ _ _ coverA1_1]
  unfold kernelRun1_A
  dsimp only
  sl_unfold_run_names
  rw [View.canon_cons_unit_zero (S := S128x4096) zero2, View.readCov_unit_zero (S := S128x4096) _ zero2]
  simp only [View.readAt_eq_ld, harg2.read_unread, harg3.read_unread, harg4.read_unread, harg5.read_unread, View.ld_unit_zero (S := S4096x512) zero2]

theorem pieceB_0 (hc0 : ¬cond1_0 i) (hc1 : ¬cond1_1 i) :
    rdS (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).1 = k1_pay3 (kblk i x0) x2 xs0 := by
  unfold rdS
  rw [View.read_writes_eq_canon _ _ _ coverB1_0]
  unfold kernelRun1_B
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, View.readCov_unit_zero (S := S128x4096) _ zero2, View.ld_unit_zero (S := S4096x512) zero2, View.ld_unit_zero (S := S128x4096) zero2, View.ld_unit_zero (S := S1x4096) zero2]

theorem pieceB_1 (hc0 : ¬cond1_0 i) (hc1 : ¬cond1_1 i) :
    rdS (kernelRun1_B (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 = k1_pay4 (kblk i x1) x3 xs1 := by
  unfold rdS
  rw [View.read_writes_eq_canon _ _ _ coverB1_1]
  unfold kernelRun1_B
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, View.readCov_unit_zero (S := S128x4096) _ zero2, View.ld_unit_zero (S := S4096x512) zero2, View.ld_unit_zero (S := S128x4096) zero2, View.ld_unit_zero (S := S1x4096) zero2]

theorem pieceC_S0 (hc0 : ¬cond1_0 i) (hc1 : cond1_1 i) :
    rdS (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.1 = k1_pay3 (kblk i x0) x2 xs0 := by
  unfold rdS
  rw [View.read_writes_eq_canon _ _ _ coverC1_S0]
  unfold kernelRun1_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, View.readCov_unit_zero (S := S128x4096) _ zero2, View.ld_unit_zero (S := S4096x512) zero2, View.ld_unit_zero (S := S128x4096) zero2, View.ld_unit_zero (S := S1x4096) zero2]

theorem pieceC_S1 (hc0 : ¬cond1_0 i) (hc1 : cond1_1 i) :
    rdS (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.2.2.1 = k1_pay4 (kblk i x1) x3 xs1 := by
  unfold rdS
  rw [View.read_writes_eq_canon _ _ _ coverC1_S1]
  unfold kernelRun1_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, View.readCov_unit_zero (S := S128x4096) _ zero2, View.ld_unit_zero (S := S4096x512) zero2, View.ld_unit_zero (S := S128x4096) zero2, View.ld_unit_zero (S := S1x4096) zero2]

theorem pieceC_6 (hc0 : ¬cond1_0 i) (hc1 : cond1_1 i) :
    rdS (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).1 = k1_pay5 (k1_pay3 (kblk i x0) x2 xs0) x4 := by
  unfold rdS
  rw [View.read_writes_eq_canon _ _ _ coverC1_6]
  unfold kernelRun1_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, View.readCov_unit_zero (S := S128x4096) _ zero2, View.ld_unit_zero (S := S4096x512) zero2, View.ld_unit_zero (S := S128x4096) zero2, View.ld_unit_zero (S := S1x4096) zero2]

theorem pieceC_7 (hc0 : ¬cond1_0 i) (hc1 : cond1_1 i) :
    rdS (kernelRun1_C (F := F) c i arg2 harg2 arg3 harg3 arg4 harg4 arg5 harg5 arg6 harg6 arg7 harg7 arg8 harg8 arg9 harg9 arg10 harg10 arg11 harg11 hc0 hc1 x0 x1 x2 x3 x4 x5 xs0 xs1).2.1 = k1_pay6 (k1_pay4 (kblk i x1) x3 xs1) x5 := by
  unfold rdS
  rw [View.read_writes_eq_canon _ _ _ coverC1_7]
  unfold kernelRun1_C
  dsimp only
  sl_unfold_run_names
  rw [View.canon_unit_zero zero2]
  simp only [View.readAt_eq_ld, harg2.read_unread, harg3.read_unread, harg4.read_unread, harg5.read_unread, harg6.read_unread, harg7.read_unread, harg10.read_unread, harg11.read_unread, View.readCov_unit_zero (S := S128x4096) _ zero2, View.ld_unit_zero (S := S4096x512) zero2, View.ld_unit_zero (S := S128x4096) zero2, View.ld_unit_zero (S := S1x4096) zero2]

end Pieces

section Payloads

theorem dot_eq : dot_S128x512_S4096x512_S128x4096_1_1_0_0_n_n = DotDims.transposedRhs 128 512 4096 := rfl

theorem pay1_apply (y : S128x4096.Idx) : (k1_pay1 (F := Ideal)) y = 0 := by
  unfold k1_pay1
  simp only [shapeCast_self]
  exact Ideal.ofBits_zero_f32
theorem pay2_apply (y : S128x4096.Idx) : (k1_pay2 (F := Ideal)) y = 0 := by
  unfold k1_pay2
  simp only [shapeCast_self]
  exact Ideal.ofBits_zero_f32

theorem pay3_apply (v6 : FVec Ideal S128x512 .bf16) (v11 : FVec Ideal S4096x512 .bf16) (v15 : FVec Ideal S128x4096 .f32)
    (r : Fin 128) (q : Fin 4096) :
    k1_pay3 (F := Ideal) v6 v11 v15 (ix2 r q) = v15 (ix2 r q) + ∑ j : Fin 512, v6 (ix2 r j) * v11 (ix2 q j) := by
  unfold k1_pay3
  simp only [shapeCast_self]
  exact congrArg (v15 (ix2 r q) + ·) (Cert.DotRows.matmul_zero_apply (M := 128) (K := 512) (N := 4096) none v6 v11 r q)
theorem pay4_apply (v9 : FVec Ideal S128x512 .bf16) (v13 : FVec Ideal S4096x512 .bf16) (v21 : FVec Ideal S128x4096 .f32)
    (r : Fin 128) (q : Fin 4096) :
    k1_pay4 (F := Ideal) v9 v13 v21 (ix2 r q) = v21 (ix2 r q) + ∑ j : Fin 512, v9 (ix2 r j) * v13 (ix2 q j) := by
  unfold k1_pay4
  simp only [shapeCast_self]
  exact congrArg (v21 (ix2 r q) + ·) (Cert.DotRows.matmul_zero_apply (M := 128) (K := 512) (N := 4096) none v9 v13 r q)

theorem pay5_apply (v30 : FVec Ideal S128x4096 .f32) (v31 : FVec Ideal S1x4096 .f32) (r : Fin 128) (q : Fin 4096) :
    k1_pay5 (F := Ideal) v30 v31 (ix2 r q) = v30 (ix2 r q) + v31 (ix2 (0 : Fin 1) q) := by
  unfold k1_pay5
  simp only [shapeCast_self]
  exact congrArg (v30 (ix2 r q) + ·) (Cert.RowBias.rows_apply (M := 128) (n := 4096) v31 broadcasts_S1x4096_S128x4096 r q)
theorem pay6_apply (v36 : FVec Ideal S128x4096 .f32) (v37 : FVec Ideal S1x4096 .f32) (r : Fin 128) (q : Fin 4096) :
    k1_pay6 (F := Ideal) v36 v37 (ix2 r q) = v36 (ix2 r q) + v37 (ix2 (0 : Fin 1) q) := by
  unfold k1_pay6
  simp only [shapeCast_self]
  exact congrArg (v36 (ix2 r q) + ·) (Cert.RowBias.rows_apply (M := 128) (n := 4096) v37 broadcasts_S1x4096_S128x4096 r q)

end Payloads

section IndexMaps

theorem idx1_0 : ∀ t : Fin cfg1.N, win1_0.index t 0 = t.val / 8 ∧ win1_0.index t 1 = 0 :=
  (by decide +kernel : ∀ t : Fin grid1.N, win1_0.index t 0 = t.val / 8 ∧ win1_0.index t 1 = 0)
theorem idx1_1 : ∀ t : Fin cfg1.N, win1_1.index t 0 = t.val / 8 ∧ win1_1.index t 1 = 0 :=
  (by decide +kernel : ∀ t : Fin grid1.N, win1_1.index t 0 = t.val / 8 ∧ win1_1.index t 1 = 0)
theorem idx1_2 : ∀ t : Fin cfg1.N, win1_2.index t 0 = 0 ∧ win1_2.index t 1 = t.val % 8 :=
  (by decide +kernel : ∀ t : Fin grid1.N, win1_2.index t 0 = 0 ∧ win1_2.index t 1 = t.val % 8)
theorem idx1_3 : ∀ t : Fin cfg1.N, win1_3.index t 0 = 0 ∧ win1_3.index t 1 = t.val % 8 :=
  (by decide +kernel : ∀ t : Fin grid1.N, win1_3.index t 0 = 0 ∧ win1_3.index t 1 = t.val % 8)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = t.val / 8 ∧ win1_6.index t 1 = 0 :=
  (by decide +kernel : ∀ t : Fin grid1.N, win1_6.index t 0 = t.val / 8 ∧ win1_6.index t 1 = 0)
theorem idx1_7 : ∀ t : Fin cfg1.N, win1_7.index t 0 = t.val / 8 ∧ win1_7.index t 1 = 0 :=
  (by decide +kernel : ∀ t : Fin grid1.N, win1_7.index t 0 = t.val / 8 ∧ win1_7.index t 1 = 0)

theorem coord1 : ∀ t : Fin cfg1.N, ((grid1.coords t) 1).val = t.val % 8 :=
  (by decide +kernel : ∀ t : Fin grid1.N, ((grid1.coords t) 1).val = t.val % 8)

end IndexMaps

section PartialSums

open Cert.Spec

def ent (x : Arr) (P K : ℕ) : EReal := if h : P < 1024 ∧ K < 4096 then x (ix2 ⟨P, h.1⟩ ⟨K, h.2⟩) else 0

def went (M : Mat) (q : Fin 4096) (K : ℕ) : EReal := if h : K < 4096 then M (ix2 q ⟨K, h⟩) else 0

def part (x : Arr) (M : Mat) (P : ℕ) (q : Fin 4096) (n : ℕ) : EReal := ∑ K ∈ Finset.range n, ent x P K * went M q K

theorem part_zero (x : Arr) (M : Mat) (P : ℕ) (q : Fin 4096) : part x M P q (512 * 0) = 0 := by
  unfold part; rw [Nat.mul_zero, Finset.sum_range_zero]

theorem part_add_block (x : Arr) (M : Mat) (P : ℕ) (q : Fin 4096) (k : ℕ) :
    part x M P q (512 * k + 512) = part x M P q (512 * k) + ∑ j : Fin 512, ent x P (512 * k + j.val) * went M q (512 * k + j.val) := by
  unfold part
  rw [Finset.sum_range_add, ← Fin.sum_univ_eq_sum_range (fun j => ent x P (512 * k + j) * went M q (512 * k + j)) 512]

theorem part_full (x : Arr) (M : Mat) (p : Fin 1024) (q : Fin 4096) : part x M p.val q 4096 = rowDot x M p q := by
  unfold part rowDot
  rw [← Fin.sum_univ_eq_sum_range (fun K => ent x p.val K * went M q K) 4096]
  refine Finset.sum_congr rfl fun K _ => ?_
  unfold ent went
  rw [dif_pos ⟨p.isLt, K.isLt⟩, dif_pos K.isLt]

theorem block_sum (x : Arr) (M : Mat) (xb : FVec Ideal S128x4096 .bf16) (wb : FVec Ideal S4096x512 .bf16) (i : grid1.Coords)
    (m k : ℕ) (hm : m < 8) (hk : k < 8) (hi : (i 1).val = k)
    (hx : ∀ (r : Fin 128) (K : Fin 4096) (p : Fin 1024), p.val = 128 * m + r.val → xb (ix2 r K) = x (ix2 p K))
    (hw : ∀ (q : Fin 4096) (j : Fin 512) (K : Fin 4096), K.val = 512 * k + j.val → wb (ix2 q j) = M (ix2 q K))
    (r : Fin 128) (q : Fin 4096) :
    ∑ j : Fin 512, kblk (F := Ideal) i xb (ix2 r j) * wb (ix2 q j)
      = ∑ j : Fin 512, ent x (128 * m + r.val) (512 * k + j.val) * went M q (512 * k + j.val) := by
  refine Finset.sum_congr rfl fun j _ => ?_
  have hr := r.isLt
  have hj := j.isLt
  have hP : 128 * m + r.val < 1024 := by omega
  have hK : 512 * k + j.val < 4096 := by omega
  unfold ent went
  rw [dif_pos ⟨hP, hK⟩, dif_pos hK]
  have e1 : kblk (F := Ideal) i xb (ix2 r j) = xb (ix2 r ⟨512 * k + j.val, hK⟩) := by
    show xb _ = xb _
    congr 1
    funext a
    apply Fin.ext
    match a with
    | ⟨0, _⟩ => show (k1_off1 i) 0 + 1 * r.val = r.val; rw [k1_off1_eq]; show 0 + 1 * r.val = r.val; omega
    | ⟨1, _⟩ => show (k1_off1 i) 1 + 1 * j.val = 512 * k + j.val; rw [k1_off1_eq]; show 512 * (i 1).val + 1 * j.val = _; rw [hi]; omega
  rw [e1, hx r ⟨512 * k + j.val, hK⟩ ⟨128 * m + r.val, hP⟩ rfl, hw q j ⟨512 * k + j.val, hK⟩ rfl]

theorem step3 (x : Arr) (M : Mat) (xb : FVec Ideal S128x4096 .bf16) (wb : FVec Ideal S4096x512 .bf16) (i : grid1.Coords)
    (m k : ℕ) (hm : m < 8) (hk : k < 8) (hi : (i 1).val = k)
    (hx : ∀ (r : Fin 128) (K : Fin 4096) (p : Fin 1024), p.val = 128 * m + r.val → xb (ix2 r K) = x (ix2 p K))
    (hw : ∀ (q : Fin 4096) (j : Fin 512) (K : Fin 4096), K.val = 512 * k + j.val → wb (ix2 q j) = M (ix2 q K))
    (s : FVec Ideal S128x4096 .f32) (r : Fin 128) (q : Fin 4096) (hs : s (ix2 r q) = part x M (128 * m + r.val) q (512 * k)) :
    k1_pay3 (F := Ideal) (kblk (F := Ideal) i xb) wb s (ix2 r q) = part x M (128 * m + r.val) q (512 * k + 512) := by
  rw [pay3_apply, hs, part_add_block, block_sum x M xb wb i m k hm hk hi hx hw r q]
theorem step4 (x : Arr) (M : Mat) (xb : FVec Ideal S128x4096 .bf16) (wb : FVec Ideal S4096x512 .bf16) (i : grid1.Coords)
    (m k : ℕ) (hm : m < 8) (hk : k < 8) (hi : (i 1).val = k)
    (hx : ∀ (r : Fin 128) (K : Fin 4096) (p : Fin 1024), p.val = 128 * m + r.val → xb (ix2 r K) = x (ix2 p K))
    (hw : ∀ (q : Fin 4096) (j : Fin 512) (K : Fin 4096), K.val = 512 * k + j.val → wb (ix2 q j) = M (ix2 q K))
    (s : FVec Ideal S128x4096 .f32) (r : Fin 128) (q : Fin 4096) (hs : s (ix2 r q) = part x M (128 * m + r.val) q (512 * k)) :
    k1_pay4 (F := Ideal) (kblk (F := Ideal) i xb) wb s (ix2 r q) = part x M (128 * m + r.val) q (512 * k + 512) := by
  rw [pay4_apply, hs, part_add_block, block_sum x M xb wb i m k hm hk hi hx hw r q]

end PartialSums

section Values

open Cert.Spec

variable (V : (c : Dev nD) → (b : Ref sig .tc) → Buf (Elt Ideal) ((c : Thread nD τ).loc b))

abbrev xarr0 (c : Dev nD) : Arr := V c main_v6_0
abbrev xarr1 (c : Dev nD) : Arr := V c main_v6_1
abbrev warr0 (c : Dev nD) : Mat := V c main_v2
abbrev warr1 (c : Dev nD) : Mat := V c main_v3
abbrev brow0 (c : Dev nD) : Row := V c main_v4
abbrev brow1 (c : Dev nD) : Row := V c main_v5

abbrev xblk0 (c : Dev nD) (t : Fin cfg1.N) : FVec Ideal S128x4096 .bf16 := iblk1 V c 0 t
abbrev xblk1 (c : Dev nD) (t : Fin cfg1.N) : FVec Ideal S128x4096 .bf16 := iblk1 V c 1 t
abbrev wblk0 (c : Dev nD) (t : Fin cfg1.N) : FVec Ideal S4096x512 .bf16 := iblk1 V c 2 t
abbrev wblk1 (c : Dev nD) (t : Fin cfg1.N) : FVec Ideal S4096x512 .bf16 := iblk1 V c 3 t
abbrev bblk0 (c : Dev nD) (t : Fin cfg1.N) : FVec Ideal S1x4096 .f32 := iblk1 V c 4 t
abbrev bblk1 (c : Dev nD) (t : Fin cfg1.N) : FVec Ideal S1x4096 .f32 := iblk1 V c 5 t

theorem xblk0_apply (c : Dev nD) (t : Fin cfg1.N) (r : Fin 128) (K : Fin 4096) (p : Fin 1024) (hp : p.val = 128 * (t.val / 8) + r.val) :
    xblk0 V c t (ix2 r K) = xarr0 V c (ix2 p K) := by
  have hi := idx1_0 t
  show iblk1 V c 0 t (ix2 r K) = _
  unfold iblk1
  rw [View.read_apply]
  show V c main_v6_0 _ = V c main_v6_0 _
  congr 1
  funext a
  apply Fin.ext
  match a with
  | ⟨0, _⟩ => show win1_0.index t 0 * 128 + 1 * r.val = p.val; rw [hi.1, hp]; omega
  | ⟨1, _⟩ => show win1_0.index t 1 * 4096 + 1 * K.val = K.val; rw [hi.2]; omega
theorem xblk1_apply (c : Dev nD) (t : Fin cfg1.N) (r : Fin 128) (K : Fin 4096) (p : Fin 1024) (hp : p.val = 128 * (t.val / 8) + r.val) :
    xblk1 V c t (ix2 r K) = xarr1 V c (ix2 p K) := by
  have hi := idx1_1 t
  show iblk1 V c 1 t (ix2 r K) = _
  unfold iblk1
  rw [View.read_apply]
  show V c main_v6_1 _ = V c main_v6_1 _
  congr 1
  funext a
  apply Fin.ext
  match a with
  | ⟨0, _⟩ => show win1_1.index t 0 * 128 + 1 * r.val = p.val; rw [hi.1, hp]; omega
  | ⟨1, _⟩ => show win1_1.index t 1 * 4096 + 1 * K.val = K.val; rw [hi.2]; omega

theorem wblk0_apply (c : Dev nD) (t : Fin cfg1.N) (q : Fin 4096) (j : Fin 512) (K : Fin 4096) (hK : K.val = 512 * (t.val % 8) + j.val) :
    wblk0 V c t (ix2 q j) = warr0 V c (ix2 q K) := by
  have hi := idx1_2 t
  show iblk1 V c 2 t (ix2 q j) = _
  unfold iblk1
  rw [View.read_apply]
  show V c main_v2 _ = V c main_v2 _
  congr 1
  funext a
  apply Fin.ext
  match a with
  | ⟨0, _⟩ => show win1_2.index t 0 * 4096 + 1 * q.val = q.val; rw [hi.1]; omega
  | ⟨1, _⟩ => show win1_2.index t 1 * 512 + 1 * j.val = K.val; rw [hi.2, hK]; omega
theorem wblk1_apply (c : Dev nD) (t : Fin cfg1.N) (q : Fin 4096) (j : Fin 512) (K : Fin 4096) (hK : K.val = 512 * (t.val % 8) + j.val) :
    wblk1 V c t (ix2 q j) = warr1 V c (ix2 q K) := by
  have hi := idx1_3 t
  show iblk1 V c 3 t (ix2 q j) = _
  unfold iblk1
  rw [View.read_apply]
  show V c main_v3 _ = V c main_v3 _
  congr 1
  funext a
  apply Fin.ext
  match a with
  | ⟨0, _⟩ => show win1_3.index t 0 * 4096 + 1 * q.val = q.val; rw [hi.1]; omega
  | ⟨1, _⟩ => show win1_3.index t 1 * 512 + 1 * j.val = K.val; rw [hi.2, hK]; omega

theorem bblk0_apply (c : Dev nD) (t : Fin cfg1.N) (q : Fin 4096) : bblk0 V c t (ix2 (0 : Fin 1) q) = brow0 V c (ix2 (0 : Fin 1) q) := by
  have hi := idx1_4 t
  show iblk1 V c 4 t (ix2 (0 : Fin 1) q) = _
  unfold iblk1
  rw [View.read_apply]
  show V c main_v4 _ = V c main_v4 _
  congr 1
  funext a
  apply Fin.ext
  match a with
  | ⟨0, _⟩ => show win1_4.index t 0 * 1 + 1 * 0 = 0; rw [hi.1]
  | ⟨1, _⟩ => show win1_4.index t 1 * 4096 + 1 * q.val = q.val; rw [hi.2]; omega
theorem bblk1_apply (c : Dev nD) (t : Fin cfg1.N) (q : Fin 4096) : bblk1 V c t (ix2 (0 : Fin 1) q) = brow1 V c (ix2 (0 : Fin 1) q) := by
  have hi := idx1_5 t
  show iblk1 V c 5 t (ix2 (0 : Fin 1) q) = _
  unfold iblk1
  rw [View.read_apply]
  show V c main_v5 _ = V c main_v5 _
  congr 1
  funext a
  apply Fin.ext
  match a with
  | ⟨0, _⟩ => show win1_5.index t 0 * 1 + 1 * 0 = 0; rw [hi.1]
  | ⟨1, _⟩ => show win1_5.index t 1 * 4096 + 1 * q.val = q.val; rw [hi.2]; omega

theorem accA_0 (c : Dev nD) (t : Fin cfg1.N) (h0 : t.val % 8 = 0) (h1 : ¬t.val % 8 = 7) :
    rdS (runA1 V c t h0 h1).1 = k1_pay3 (F := Ideal) (kblk (F := Ideal) (grid1.coords t) (xblk0 V c t)) (wblk0 V c t) (k1_pay1 (F := Ideal)) :=
  pieceA_0 (F := Ideal) ..
theorem accA_1 (c : Dev nD) (t : Fin cfg1.N) (h0 : t.val % 8 = 0) (h1 : ¬t.val % 8 = 7) :
    rdS (runA1 V c t h0 h1).2.1 = k1_pay4 (F := Ideal) (kblk (F := Ideal) (grid1.coords t) (xblk1 V c t)) (wblk1 V c t) (k1_pay2 (F := Ideal)) :=
  pieceA_1 (F := Ideal) ..
theorem accB_0 (c : Dev nD) (t : Fin cfg1.N) (h0 : ¬t.val % 8 = 0) (h1 : ¬t.val % 8 = 7) (s0 s1 : FVec Ideal S128x4096 .f32) :
    rdS (runB1 V c t h0 h1 s0 s1).1 = k1_pay3 (F := Ideal) (kblk (F := Ideal) (grid1.coords t) (xblk0 V c t)) (wblk0 V c t) s0 :=
  pieceB_0 (F := Ideal) ..
theorem accB_1 (c : Dev nD) (t : Fin cfg1.N) (h0 : ¬t.val % 8 = 0) (h1 : ¬t.val % 8 = 7) (s0 s1 : FVec Ideal S128x4096 .f32) :
    rdS (runB1 V c t h0 h1 s0 s1).2.1 = k1_pay4 (F := Ideal) (kblk (F := Ideal) (grid1.coords t) (xblk1 V c t)) (wblk1 V c t) s1 :=
  pieceB_1 (F := Ideal) ..
theorem accC_0 (c : Dev nD) (t : Fin cfg1.N) (h0 : ¬t.val % 8 = 0) (h1 : t.val % 8 = 7) (s0 s1 : FVec Ideal S128x4096 .f32) :
    rdS (runC1 V c t h0 h1 s0 s1).2.2.1 = k1_pay3 (F := Ideal) (kblk (F := Ideal) (grid1.coords t) (xblk0 V c t)) (wblk0 V c t) s0 :=
  pieceC_S0 (F := Ideal) ..
theorem accC_1 (c : Dev nD) (t : Fin cfg1.N) (h0 : ¬t.val % 8 = 0) (h1 : t.val % 8 = 7) (s0 s1 : FVec Ideal S128x4096 .f32) :
    rdS (runC1 V c t h0 h1 s0 s1).2.2.2.1 = k1_pay4 (F := Ideal) (kblk (F := Ideal) (grid1.coords t) (xblk1 V c t)) (wblk1 V c t) s1 :=
  pieceC_S1 (F := Ideal) ..
theorem outC_6 (c : Dev nD) (t : Fin cfg1.N) (h0 : ¬t.val % 8 = 0) (h1 : t.val % 8 = 7) (s0 s1 : FVec Ideal S128x4096 .f32) :
    rdS (runC1 V c t h0 h1 s0 s1).1 = k1_pay5 (F := Ideal) (k1_pay3 (F := Ideal) (kblk (F := Ideal) (grid1.coords t) (xblk0 V c t)) (wblk0 V c t) s0) (bblk0 V c t) :=
  pieceC_6 (F := Ideal) ..
theorem outC_7 (c : Dev nD) (t : Fin cfg1.N) (h0 : ¬t.val % 8 = 0) (h1 : t.val % 8 = 7) (s0 s1 : FVec Ideal S128x4096 .f32) :
    rdS (runC1 V c t h0 h1 s0 s1).2.1 = k1_pay6 (F := Ideal) (k1_pay4 (F := Ideal) (kblk (F := Ideal) (grid1.coords t) (xblk1 V c t)) (wblk1 V c t) s1) (bblk1 V c t) :=
  pieceC_7 (F := Ideal) ..

theorem acc_eq (c : Dev nD) : ∀ (n : ℕ) (hn : n < cfg1.N) (r : Fin 128) (q : Fin 4096),
    (scAt1 V c n hn).1 (ix2 r q) = part (xarr0 V c) (warr0 V c) (128 * (n / 8) + r.val) q (512 * (n % 8) + 512)
    ∧ (scAt1 V c n hn).2 (ix2 r q) = part (xarr1 V c) (warr1 V c) (128 * (n / 8) + r.val) q (512 * (n % 8) + 512) := by
  intro n
  induction n using Nat.strong_induction_on with
  | _ n ih =>
    intro hn r q
    have hN : n < 64 := lt_of_lt_of_eq hn (show cfg1.N = 64 from N_1)
    have hm : n / 8 < 8 := by omega
    have hk : n % 8 < 8 := by omega
    have hc : ((grid1.coords ⟨n, hn⟩) 1).val = n % 8 := coord1 ⟨n, hn⟩
    have hx0 : ∀ (r : Fin 128) (K : Fin 4096) (p : Fin 1024), p.val = 128 * (n / 8) + r.val → xblk0 V c ⟨n, hn⟩ (ix2 r K) = xarr0 V c (ix2 p K) :=
      fun r K p hp => xblk0_apply V c ⟨n, hn⟩ r K p hp
    have hx1 : ∀ (r : Fin 128) (K : Fin 4096) (p : Fin 1024), p.val = 128 * (n / 8) + r.val → xblk1 V c ⟨n, hn⟩ (ix2 r K) = xarr1 V c (ix2 p K) :=
      fun r K p hp => xblk1_apply V c ⟨n, hn⟩ r K p hp
    have hw0 : ∀ (q : Fin 4096) (j : Fin 512) (K : Fin 4096), K.val = 512 * (n % 8) + j.val → wblk0 V c ⟨n, hn⟩ (ix2 q j) = warr0 V c (ix2 q K) :=
      fun q j K hK => wblk0_apply V c ⟨n, hn⟩ q j K hK
    have hw1 : ∀ (q : Fin 4096) (j : Fin 512) (K : Fin 4096), K.val = 512 * (n % 8) + j.val → wblk1 V c ⟨n, hn⟩ (ix2 q j) = warr1 V c (ix2 q K) :=
      fun q j K hK => wblk1_apply V c ⟨n, hn⟩ q j K hK
    by_cases h0 : n % 8 = 0
    · have h1 : ¬n % 8 = 7 := by omega
      rw [show scAt1 V c n hn = _ from scAt1_A V c ⟨n, hn⟩ h0 h1]
      dsimp only
      rw [accA_0 V c ⟨n, hn⟩ h0 h1, accA_1 V c ⟨n, hn⟩ h0 h1]
      exact ⟨step3 (xarr0 V c) (warr0 V c) (xblk0 V c ⟨n, hn⟩) (wblk0 V c ⟨n, hn⟩) (grid1.coords ⟨n, hn⟩) (n / 8) (n % 8) hm hk hc hx0 hw0 (k1_pay1 (F := Ideal)) r q (by rw [h0, part_zero]; exact pay1_apply _),
        step4 (xarr1 V c) (warr1 V c) (xblk1 V c ⟨n, hn⟩) (wblk1 V c ⟨n, hn⟩) (grid1.coords ⟨n, hn⟩) (n / 8) (n % 8) hm hk hc hx1 hw1 (k1_pay2 (F := Ideal)) r q (by rw [h0, part_zero]; exact pay2_apply _)⟩
    · have ihp := ih (n - 1) (by omega) (pred_lt1 ⟨n, hn⟩) r q
      have e1 : (n - 1) / 8 = n / 8 := by omega
      have e2 : 512 * ((n - 1) % 8) + 512 = 512 * (n % 8) := by omega
      rw [e1, e2] at ihp
      by_cases h1 : n % 8 = 7
      · rw [show scAt1 V c n hn = _ from scAt1_C V c ⟨n, hn⟩ h0 h1]
        dsimp only
        rw [accC_0 V c ⟨n, hn⟩ h0 h1, accC_1 V c ⟨n, hn⟩ h0 h1]
        exact ⟨step3 (xarr0 V c) (warr0 V c) (xblk0 V c ⟨n, hn⟩) (wblk0 V c ⟨n, hn⟩) (grid1.coords ⟨n, hn⟩) (n / 8) (n % 8) hm hk hc hx0 hw0 (scAt1 V c (n - 1) (pred_lt1 ⟨n, hn⟩)).1 r q ihp.1,
          step4 (xarr1 V c) (warr1 V c) (xblk1 V c ⟨n, hn⟩) (wblk1 V c ⟨n, hn⟩) (grid1.coords ⟨n, hn⟩) (n / 8) (n % 8) hm hk hc hx1 hw1 (scAt1 V c (n - 1) (pred_lt1 ⟨n, hn⟩)).2 r q ihp.2⟩
      · rw [show scAt1 V c n hn = _ from scAt1_B V c ⟨n, hn⟩ h0 h1]
        dsimp only
        rw [accB_0 V c ⟨n, hn⟩ h0 h1, accB_1 V c ⟨n, hn⟩ h0 h1]
        exact ⟨step3 (xarr0 V c) (warr0 V c) (xblk0 V c ⟨n, hn⟩) (wblk0 V c ⟨n, hn⟩) (grid1.coords ⟨n, hn⟩) (n / 8) (n % 8) hm hk hc hx0 hw0 (scAt1 V c (n - 1) (pred_lt1 ⟨n, hn⟩)).1 r q ihp.1,
          step4 (xarr1 V c) (warr1 V c) (xblk1 V c ⟨n, hn⟩) (wblk1 V c ⟨n, hn⟩) (grid1.coords ⟨n, hn⟩) (n / 8) (n % 8) hm hk hc hx1 hw1 (scAt1 V c (n - 1) (pred_lt1 ⟨n, hn⟩)).2 r q ihp.2⟩

theorem out6_apply (c : Dev nD) (t : Fin cfg1.N) (h1 : t.val % 8 = 7) (r : Fin 128) (q : Fin 4096) (p : Fin 1024)
    (hp : p.val = 128 * (t.val / 8) + r.val) :
    outAt1_6 V c t (ix2 r q) = rowDot (xarr0 V c) (warr0 V c) p q + brow0 V c (ix2 (0 : Fin 1) q) := by
  have h0 : ¬t.val % 8 = 0 := by omega
  have e : (scAt1 V c t.val t.isLt).1 = k1_pay3 (F := Ideal) (kblk (F := Ideal) (grid1.coords t) (xblk0 V c t)) (wblk0 V c t) (scAt1 V c (t.val - 1) (pred_lt1 t)).1 := by
    rw [scAt1_C V c t h0 h1]
    dsimp only
    exact accC_0 V c t h0 h1 (scAt1 V c (t.val - 1) (pred_lt1 t)).1 (scAt1 V c (t.val - 1) (pred_lt1 t)).2
  rw [outAt1_6_C V c t h0 h1, outC_6 V c t h0 h1, pay5_apply, ← e, (acc_eq V c t.val t.isLt r q).1, bblk0_apply, h1, ← hp]
  show part _ _ p.val q 4096 + _ = _
  rw [part_full]

theorem out7_apply (c : Dev nD) (t : Fin cfg1.N) (h1 : t.val % 8 = 7) (r : Fin 128) (q : Fin 4096) (p : Fin 1024)
    (hp : p.val = 128 * (t.val / 8) + r.val) :
    outAt1_7 V c t (ix2 r q) = rowDot (xarr1 V c) (warr1 V c) p q + brow1 V c (ix2 (0 : Fin 1) q) := by
  have h0 : ¬t.val % 8 = 0 := by omega
  have e : (scAt1 V c t.val t.isLt).2 = k1_pay4 (F := Ideal) (kblk (F := Ideal) (grid1.coords t) (xblk1 V c t)) (wblk1 V c t) (scAt1 V c (t.val - 1) (pred_lt1 t)).2 := by
    rw [scAt1_C V c t h0 h1]
    dsimp only
    exact accC_1 V c t h0 h1 (scAt1 V c (t.val - 1) (pred_lt1 t)).1 (scAt1 V c (t.val - 1) (pred_lt1 t)).2
  rw [outAt1_7_C V c t h0 h1, outC_7 V c t h0 h1, pay6_apply, ← e, (acc_eq V c t.val t.isLt r q).2, bblk1_apply, h1, ← hp]
  show part _ _ p.val q 4096 + _ = _
  rw [part_full]

abbrev res0 (c : Dev nD) : Arr := arrOf (fun p q => rowDot (xarr0 V c) (warr0 V c) p q + brow0 V c (ix2 (0 : Fin 1) q))
abbrev res1 (c : Dev nD) : Arr := arrOf (fun p q => rowDot (xarr1 V c) (warr1 V c) p q + brow1 V c (ix2 (0 : Fin 1) q))

theorem flushed6_eq (c : Dev nD) (t : Fin cfg1.N) (hf : (cfg1.win 6).flush t = true) :
    (dat1 V c).flushed 6 t = ((cfg1.win 6).blk t).view.read (Elt Ideal) (res0 V c) := by
  have h1 : t.val % 8 = 7 := (flush1_6 t).mp hf
  have hN : t.val < 64 := lt_of_lt_of_eq t.isLt (show cfg1.N = 64 from N_1)
  have hi := idx1_6 t
  show (cfg1.win 6).cut (grid1.coords t) ((dat1 V c).after 6 t) = _
  rw [after1_6]
  funext y
  rw [View.read_apply]
  have hy0 : (y 0).val < 128 := (y 0).isLt
  have hy1 : (y 1).val < 4096 := (y 1).isLt
  have hp : 128 * (t.val / 8) + (y 0).val < 1024 := by omega
  have eL : (cfg1.win 6).cut (grid1.coords t) (outAt1_6 V c t) y = outAt1_6 V c t (ix2 (⟨(y 0).val, hy0⟩ : Fin 128) (⟨(y 1).val, hy1⟩ : Fin 4096)) := by
    show outAt1_6 V c t _ = outAt1_6 V c t _
    congr 1
    funext a
    apply Fin.ext
    match a with
    | ⟨0, _⟩ => rfl
    | ⟨1, _⟩ => rfl
  have eR : ((cfg1.win 6).blk t).view.emb y = ix2 (⟨128 * (t.val / 8) + (y 0).val, hp⟩ : Fin 1024) (⟨(y 1).val, hy1⟩ : Fin 4096) := by
    funext a
    apply Fin.ext
    match a with
    | ⟨0, _⟩ => show win1_6.index t 0 * 128 + 1 * (y 0).val = 128 * (t.val / 8) + (y 0).val; rw [hi.1]; omega
    | ⟨1, _⟩ => show win1_6.index t 1 * 4096 + 1 * (y 1).val = (y 1).val; rw [hi.2]; omega
  refine eL.trans ?_
  rw [eR]
  exact out6_apply V c t h1 ⟨(y 0).val, hy0⟩ ⟨(y 1).val, hy1⟩ ⟨128 * (t.val / 8) + (y 0).val, hp⟩ rfl

theorem cover6 (c : Dev nD) (i : S1024x4096.Idx) :
    ∃ t : Fin cfg1.N, (cfg1.win 6).flush t = true ∧ i ∈ ((cfg1.win 6).blk t).view.set := by
  have hi0 : (i 0).val < 1024 := (i 0).isLt
  have hi1 : (i 1).val < 4096 := (i 1).isLt
  have hN : cfg1.N = 64 := N_1
  obtain ⟨t, ht⟩ : ∃ t : Fin cfg1.N, t.val = 8 * ((i 0).val / 128) + 7 := ⟨⟨8 * ((i 0).val / 128) + 7, by rw [hN]; omega⟩, rfl⟩
  have hidx := idx1_6 t
  refine ⟨t, (flush1_6 t).mpr (by omega), ?_⟩
  show i ∈ ((View.whole main_v7_0).slice (win1_6.rect t)).set
  rw [View.set_slice_whole, Rect.mem_set_unit]
  intro a
  match a with
  | ⟨0, _⟩ =>
    show win1_6.index t 0 * 128 ≤ (i 0).val ∧ (i 0).val < win1_6.index t 0 * 128 + 128
    rw [hidx.1]; omega
  | ⟨1, _⟩ =>
    show win1_6.index t 1 * 4096 ≤ (i 1).val ∧ (i 1).val < win1_6.index t 1 * 4096 + 4096
    rw [hidx.2]; omega

theorem flushed7_eq (c : Dev nD) (t : Fin cfg1.N) (hf : (cfg1.win 7).flush t = true) :
    (dat1 V c).flushed 7 t = ((cfg1.win 7).blk t).view.read (Elt Ideal) (res1 V c) := by
  have h1 : t.val % 8 = 7 := (flush1_7 t).mp hf
  have hN : t.val < 64 := lt_of_lt_of_eq t.isLt (show cfg1.N = 64 from N_1)
  have hi := idx1_7 t
  show (cfg1.win 7).cut (grid1.coords t) ((dat1 V c).after 7 t) = _
  rw [after1_7]
  funext y
  rw [View.read_apply]
  have hy0 : (y 0).val < 128 := (y 0).isLt
  have hy1 : (y 1).val < 4096 := (y 1).isLt
  have hp : 128 * (t.val / 8) + (y 0).val < 1024 := by omega
  have eL : (cfg1.win 7).cut (grid1.coords t) (outAt1_7 V c t) y = outAt1_7 V c t (ix2 (⟨(y 0).val, hy0⟩ : Fin 128) (⟨(y 1).val, hy1⟩ : Fin 4096)) := by
    show outAt1_7 V c t _ = outAt1_7 V c t _
    congr 1
    funext a
    apply Fin.ext
    match a with
    | ⟨0, _⟩ => rfl
    | ⟨1, _⟩ => rfl
  have eR : ((cfg1.win 7).blk t).view.emb y = ix2 (⟨128 * (t.val / 8) + (y 0).val, hp⟩ : Fin 1024) (⟨(y 1).val, hy1⟩ : Fin 4096) := by
    funext a
    apply Fin.ext
    match a with
    | ⟨0, _⟩ => show win1_7.index t 0 * 128 + 1 * (y 0).val = 128 * (t.val / 8) + (y 0).val; rw [hi.1]; omega
    | ⟨1, _⟩ => show win1_7.index t 1 * 4096 + 1 * (y 1).val = (y 1).val; rw [hi.2]; omega
  refine eL.trans ?_
  rw [eR]
  exact out7_apply V c t h1 ⟨(y 0).val, hy0⟩ ⟨(y 1).val, hy1⟩ ⟨128 * (t.val / 8) + (y 0).val, hp⟩ rfl

theorem cover7 (c : Dev nD) (i : S1024x4096.Idx) :
    ∃ t : Fin cfg1.N, (cfg1.win 7).flush t = true ∧ i ∈ ((cfg1.win 7).blk t).view.set := by
  have hi0 : (i 0).val < 1024 := (i 0).isLt
  have hi1 : (i 1).val < 4096 := (i 1).isLt
  have hN : cfg1.N = 64 := N_1
  obtain ⟨t, ht⟩ : ∃ t : Fin cfg1.N, t.val = 8 * ((i 0).val / 128) + 7 := ⟨⟨8 * ((i 0).val / 128) + 7, by rw [hN]; omega⟩, rfl⟩
  have hidx := idx1_7 t
  refine ⟨t, (flush1_7 t).mpr (by omega), ?_⟩
  show i ∈ ((View.whole main_v7_1).slice (win1_7.rect t)).set
  rw [View.set_slice_whole, Rect.mem_set_unit]
  intro a
  match a with
  | ⟨0, _⟩ =>
    show win1_7.index t 0 * 128 ≤ (i 0).val ∧ (i 0).val < win1_7.index t 0 * 128 + 128
    rw [hidx.1]; omega
  | ⟨1, _⟩ =>
    show win1_7.index t 1 * 4096 ≤ (i 1).val ∧ (i 1).val < win1_7.index t 1 * 4096 + 4096
    rw [hidx.2]; omega

theorem value1_p (c : Dev nD) : (dat1 (F := Ideal) V c).arrAt 6 cfg1.N
    = Cert.Spec.arrOf (fun p q => Cert.Spec.rowDot (V c main_v6_0) (V c main_v2) p q + (V c main_v4) (ix2 (0 : Fin 1) q)) :=
  (dat1 V c).arrAt_eq_of_cover 6 (res0 V c) (flushed6_eq V c) (cover6 c)

theorem value1_q (c : Dev nD) : (dat1 (F := Ideal) V c).arrAt 7 cfg1.N
    = Cert.Spec.arrOf (fun p q => Cert.Spec.rowDot (V c main_v6_1) (V c main_v3) p q + (V c main_v5) (ix2 (0 : Fin 1) q)) :=
  (dat1 V c).arrAt_eq_of_cover 7 (res1 V c) (flushed7_eq V c) (cover7 c)

end Values

end Cert.KernelIdeal.Fr

end
-- ==== Proof.KernelIdeal.Assemble.lean ====
import proofs.«181483_j14396730376920_1_alg».proof.Proof.KernelIdeal.Launch
import proofs.«181483_j14396730376920_1_alg».proof.Proof.KernelIdeal.Value0
import proofs.«181483_j14396730376920_1_alg».proof.Proof.KernelIdeal.Value1
import proofs.«181483_j14396730376920_1_alg».proof.Proof.Spec
import proofs.«181483_j14396730376920_1_alg».proof.Proof.LibRowBias
import Idealize.ShloMosaic.Lib.StableHlo.Run

set_option maxRecDepth 16384

noncomputable section

namespace Cert.KernelIdeal.Asm

open Idealize.ShloMosaic Idealize.ShloMosaic.TcCoe Idealize.ShloMosaic.ValueIdx
open Idealize.SL Idealize.SL.Sem
open Cert.KernelIdeal Cert.KernelIdeal.Gen Cert.KernelIdeal.Fr Cert.KernelIdeal.FrV0 Cert.Spec

variable (m : (ℓ : Loc nD τ sig) → Buf (Elt Ideal) ℓ)

theorem V1_arg0 (c : Dev nD) : V1 m c main_arg0 = m ((c : Thread nD τ).loc main_arg0) := W1_of m c main_arg0 (by decide)
theorem V1_arg1 (c : Dev nD) : V1 m c main_arg1 = m ((c : Thread nD τ).loc main_arg1) := W1_of m c main_arg1 (by decide)
theorem V1_arg4 (c : Dev nD) : V1 m c main_arg4 = m ((c : Thread nD τ).loc main_arg4) := W1_of m c main_arg4 (by decide)
theorem V1_arg5 (c : Dev nD) : V1 m c main_arg5 = m ((c : Thread nD τ).loc main_arg5) := W1_of m c main_arg5 (by decide)

theorem V1_v0 (c : Dev nD) : (V1 m c main_v0 : Mat) = (m ((c : Thread nD τ).loc main_arg2) : Mat) := by
  have e : (V1 m c main_v0 : S4096x4096.Idx → EReal) = truncf (F := Ideal) .bf16 (m ((c : Thread nD τ).loc main_arg2)) bitsLt_bf16_f32 := by
    dsimp only [V1, W1, W0, hostOps0]; after_results
  exact e
theorem V1_v1 (c : Dev nD) : (V1 m c main_v1 : Mat) = (m ((c : Thread nD τ).loc main_arg3) : Mat) := by
  have e : (V1 m c main_v1 : S4096x4096.Idx → EReal) = truncf (F := Ideal) .bf16 (m ((c : Thread nD τ).loc main_arg3)) bitsLt_bf16_f32 := by
    dsimp only [V1, W1, W0, hostOps0]; after_results
  exact e
theorem V1_v2 (c : Dev nD) : (V1 m c main_v2 : Mat) = (m ((c : Thread nD τ).loc main_arg6) : Mat) := by
  have e : (V1 m c main_v2 : S4096x4096.Idx → EReal) = truncf (F := Ideal) .bf16 (m ((c : Thread nD τ).loc main_arg6)) bitsLt_bf16_f32 := by
    dsimp only [V1, W1, W0, hostOps0]; after_results
  exact e
theorem V1_v3 (c : Dev nD) : (V1 m c main_v3 : Mat) = (m ((c : Thread nD τ).loc main_arg8) : Mat) := by
  have e : (V1 m c main_v3 : S4096x4096.Idx → EReal) = truncf (F := Ideal) .bf16 (m ((c : Thread nD τ).loc main_arg8)) bitsLt_bf16_f32 := by
    dsimp only [V1, W1, W0, hostOps0]; after_results
  exact e

theorem V1_v4_apply (c : Dev nD) (q : Fin 4096) : (V1 m c main_v4 : Row) (ix2 (0 : Fin 1) q) = (m ((c : Thread nD τ).loc main_arg7) : Vec1) (ix1 q) := by
  have e : (V1 m c main_v4 : S1x4096.Idx → EReal) = shapeCast S1x4096 (m ((c : Thread nD τ).loc main_arg7)) shapeCasts_S4096_S1x4096 := by
    dsimp only [V1, W1, W0, hostOps0]; after_results; rfl
  rw [show (V1 m c main_v4 : Row) = shapeCast S1x4096 (m ((c : Thread nD τ).loc main_arg7)) shapeCasts_S4096_S1x4096 from e]
  exact Cert.RowBias.ofVec_apply _ _ q
theorem V1_v5_apply (c : Dev nD) (q : Fin 4096) : (V1 m c main_v5 : Row) (ix2 (0 : Fin 1) q) = (m ((c : Thread nD τ).loc main_arg9) : Vec1) (ix1 q) := by
  have e : (V1 m c main_v5 : S1x4096.Idx → EReal) = shapeCast S1x4096 (m ((c : Thread nD τ).loc main_arg9)) shapeCasts_S4096_S1x4096 := by
    dsimp only [V1, W1, W0, hostOps0]; after_results; rfl
  rw [show (V1 m c main_v5 : Row) = shapeCast S1x4096 (m ((c : Thread nD τ).loc main_arg9)) shapeCasts_S4096_S1x4096 from e]
  exact Cert.RowBias.ofVec_apply _ _ q

theorem result_p (c : Dev nD) :
    (dat1 (F := Ideal) (V2 m) c).arrAt 6 cfg1.N
      = outP (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg6)) (m ((c : Thread nD τ).loc main_arg7)) := by
  rw [value1_p (V2 m) c, V2_main_v6_0, value0_p (V1 m) c, V2_main_v2, V2_main_v4, V1_arg0, V1_arg1, V1_arg4, V1_v0, V1_v1, V1_v2]
  unfold outP head
  exact congrArg arrOf (funext fun p => funext fun q => by rw [V1_v4_apply])

theorem result_q (c : Dev nD) :
    (dat1 (F := Ideal) (V2 m) c).arrAt 7 cfg1.N
      = outQ (m ((c : Thread nD τ).loc main_arg0)) (m ((c : Thread nD τ).loc main_arg1)) (m ((c : Thread nD τ).loc main_arg2)) (m ((c : Thread nD τ).loc main_arg3))
          (m ((c : Thread nD τ).loc main_arg5)) (m ((c : Thread nD τ).loc main_arg8)) (m ((c : Thread nD τ).loc main_arg9)) := by
  rw [value1_q (V2 m) c, V2_main_v6_1, value0_q (V1 m) c, V2_main_v3, V2_main_v5, V1_arg0, V1_arg1, V1_arg5, V1_v0, V1_v1, V1_v3]
  unfold outQ head
  exact congrArg arrOf (funext fun p => funext fun q => by rw [V1_v5_apply])

end Cert.KernelIdeal.Asm

end
-- ==== Proof.Ref.lean ====
import proofs.«181483_j14396730376920_1_alg».proof.Proof.Gen.ReferenceIdeal.Run
import proofs.«181483_j14396730376920_1_alg».proof.Proof.Gen.ReferenceIdeal.Read
import proofs.«181483_j14396730376920_1_alg».proof.Proof.Spec
import proofs.«181483_j14396730376920_1_alg».proof.Proof.LibRowBias

noncomputable section

open scoped BigOperators

namespace Cert.RefValue

open Cert.ReferenceIdeal Cert.ReferenceIdeal.Read Idealize.ShloMosaic Idealize.ShloMosaic.ValueIdx Cert.Spec

theorem exists_ix2 (i : (⟨2, ![1024, 4096]⟩ : Shape).Idx) : ∃ (p : Fin 1024) (q : Fin 4096), i = ix2 p q :=
  ⟨⟨(i 0).val, idx2_lt0 i⟩, ⟨(i 1).val, idx2_lt1 i⟩, eq_ix2 i⟩

theorem prod_apply (x : Arr) (M : Mat) (p : Fin 1024) (q : Fin 4096) :
    val_main_v1 (F := Ideal) x M (ix2 p q) = rowDot x M p q := by
  rw [val_main_v1_apply]
  unfold rowDot
  refine Finset.sum_congr rfl fun k _ => ?_
  rw [val_main_v0_apply]
  have el : lidx_main_v1 (ix2 p q) k = ix2 p k :=
    funext fun a => Fin.ext (by match a with | ⟨0, _⟩ => rfl | ⟨1, _⟩ => rfl)
  have er : idx_main_v0 (ridx_main_v1 (ix2 p q) k) = ix2 q k :=
    funext fun a => Fin.ext (by match a with | ⟨0, _⟩ => rfl | ⟨1, _⟩ => rfl)
  rw [el, er]

theorem v3_eq (x : Arr) (M : Mat) : val_main_v3 (F := Ideal) x M = val_main_v1 (F := Ideal) x M := rfl
theorem v5_eq (x : Arr) (M : Mat) : val_main_v5 (F := Ideal) x M = val_main_v1 (F := Ideal) x M := rfl
theorem v7_eq (x : Arr) (M : Mat) : val_main_v7 (F := Ideal) x M = val_main_v1 (F := Ideal) x M := rfl

theorem rowBias_apply (b : Row) (p : Fin 1024) (q : Fin 4096) :
    val_main_v15 (F := Ideal) b (ix2 p q) = b (ix2 (0 : Fin 1) q) := by
  rw [val_main_v15_apply]
  exact congrArg b (funext fun a => Fin.ext (by match a with | ⟨0, _⟩ => rfl | ⟨1, _⟩ => rfl))

theorem v24_eq (b : Row) : val_main_v24 (F := Ideal) b = val_main_v15 (F := Ideal) b := rfl

theorem pPre_apply (u w : Arr) (G B : Mat) (bias : Row) (p : Fin 1024) (q : Fin 4096) :
    val_main_v16 (F := Ideal) u w G B bias (ix2 p q) = pPre u w G B bias p q := by
  rw [val_main_v16_apply, val_main_v14_apply, val_main_v12_apply, val_main_v10_apply, val_main_v8_apply,
    val_main_v9_apply, val_main_v11_apply, val_main_v13_apply, v3_eq, v5_eq, v7_eq, rowBias_apply,
    prod_apply, prod_apply, prod_apply, prod_apply]
  rfl

theorem qPre_apply (u w : Arr) (G B : Mat) (bias : Row) (p : Fin 1024) (q : Fin 4096) :
    val_main_v25 (F := Ideal) u w G B bias (ix2 p q) = qPre u w G B bias p q := by
  rw [val_main_v25_apply, val_main_v23_apply, val_main_v21_apply, val_main_v19_apply, val_main_v17_apply,
    val_main_v18_apply, val_main_v20_apply, val_main_v22_apply, v3_eq, v5_eq, v7_eq, v24_eq, rowBias_apply,
    prod_apply, prod_apply, prod_apply, prod_apply]
  rfl

theorem v16_eq (u w : Arr) (G B : Mat) (bias : Row) :
    val_main_v16 (F := Ideal) u w G B bias = arrOf (pPre u w G B bias) := by
  funext i
  obtain ⟨p, q, rfl⟩ := exists_ix2 i
  rw [pPre_apply, arrOf_ix2]

theorem v25_eq (u w : Arr) (G B : Mat) (bias : Row) :
    val_main_v25 (F := Ideal) u w G B bias = arrOf (qPre u w G B bias) := by
  funext i
  obtain ⟨p, q, rfl⟩ := exists_ix2 i
  rw [qPre_apply, arrOf_ix2]

theorem v27_eq (u w : Arr) (G B : Mat) (bias : Row) (W : Mat) :
    val_main_v27 (F := Ideal) u w G B bias W = val_main_v1 (F := Ideal) (val_main_v16 (F := Ideal) u w G B bias) W := rfl
theorem v32_eq (u w : Arr) (G B : Mat) (bias : Row) (W : Mat) :
    val_main_v32 (F := Ideal) u w G B bias W = val_main_v1 (F := Ideal) (val_main_v25 (F := Ideal) u w G B bias) W := rfl

theorem vecBias_apply (b : Vec1) (p : Fin 1024) (q : Fin 4096) :
    val_main_v29 (F := Ideal) b (ix2 p q) = b (ix1 q) :=
  Cert.RowBias.hostRows_apply b Facts₀.bcast_S4096_S1x4096_1 Facts₀.bcast_S1x4096_S1024x4096_0_1 p q

theorem v34_eq (b : Vec1) : val_main_v34 (F := Ideal) b = val_main_v29 (F := Ideal) b := rfl

theorem ref_p (x0 x1 : Cert.Spec.Arr) (x2 x3 : Cert.Spec.Mat) (x4 : Cert.Spec.Row) (x6 : Cert.Spec.Mat) (x7 : Cert.Spec.Vec1) :
    Cert.ReferenceIdeal.Read.val_main_v30 (F := Ideal) x0 x1 x2 x3 x4 x6 x7 = Cert.Spec.outP x0 x1 x2 x3 x4 x6 x7 := by
  funext i
  obtain ⟨p, q, rfl⟩ := exists_ix2 i
  rw [val_main_v30_apply, v27_eq, prod_apply, v16_eq, vecBias_apply]
  rfl

theorem ref_q (x0 x1 : Cert.Spec.Arr) (x2 x3 : Cert.Spec.Mat) (x5 : Cert.Spec.Row) (x8 : Cert.Spec.Mat) (x9 : Cert.Spec.Vec1) :
    Cert.ReferenceIdeal.Read.val_main_v35 (F := Ideal) x0 x1 x2 x3 x5 x8 x9 = Cert.Spec.outQ x0 x1 x2 x3 x5 x8 x9 := by
  funext i
  obtain ⟨p, q, rfl⟩ := exists_ix2 i
  rw [val_main_v35_apply, v32_eq, prod_apply, v25_eq, v34_eq, vecBias_apply]
  rfl

end Cert.RefValue

end
-- ==== Proof.lean ====
import proofs.«181483_j14396730376920_1_alg».proof.Defs
import proofs.«181483_j14396730376920_1_alg».proof.Proof.Gen.Kernel
import proofs.«181483_j14396730376920_1_alg».proof.Proof.Gen.KernelIdeal
import proofs.«181483_j14396730376920_1_alg».proof.Proof.Gen.ReferenceIdeal
import proofs.«181483_j14396730376920_1_alg».proof.Proof.Gen.Pre_finite_inputs
import proofs.«181483_j14396730376920_1_alg».proof.Proof.Gen.ReferenceIdeal.Run
import proofs.«181483_j14396730376920_1_alg».proof.Proof.Gen.ReferenceIdeal.Read
import proofs.«181483_j14396730376920_1_alg».proof.Proof.Kernel.Launch
import proofs.«181483_j14396730376920_1_alg».proof.Proof.KernelIdeal.Launch
import proofs.«181483_j14396730376920_1_alg».proof.Proof.KernelIdeal.Assemble
import proofs.«181483_j14396730376920_1_alg».proof.Proof.Ref
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2.2) (Cert.Kernel.Fr.results m ρ)

theorem frame_ki : Cert.frame_KernelIdeal := fun m ρ _ =>
  (θ_run Cert.KernelIdeal.defs _ _).mono (fun _ h c => (h c).2.2) (Cert.KernelIdeal.Fr.results m ρ)

theorem frame_ri : Cert.frame_ReferenceIdeal := fun m ρ _ =>
  (θ_run Cert.ReferenceIdeal.defs _ _).mono (fun _ h c => (h c).2.2) (Cert.ReferenceIdeal.Value.run (F := Ideal) m ρ)

theorem algebraic : Cert.algebraic_KernelIdeal_ReferenceIdeal := by
  intro m ρ m' ρ' _ hagree
  refine ⟨fun c => Cert.Spec.outP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.outQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Asm.result_p m c), (h c).2.1.trans (Cert.KernelIdeal.Asm.result_q m c), (h c).2.2⟩)
      (Cert.KernelIdeal.Fr.results (F := Ideal) m ρ)
  · refine (θ_run Cert.ReferenceIdeal.defs _ _).mono (fun _ h c => ⟨?_, ?_, (h c).2.2⟩) (Cert.ReferenceIdeal.Value.run (F := Ideal) m' ρ')
    · rw [(h c).1, (hagree c).1, (hagree c).2.1, (hagree c).2.2.1, (hagree c).2.2.2.1, (hagree c).2.2.2.2.1, (hagree c).2.2.2.2.2.2.1, (hagree c).2.2.2.2.2.2.2.1]
      exact (Cert.ReferenceIdeal.Read.val_main_v30_eq _ _ _ _ _ _ _).trans (Cert.RefValue.ref_p _ _ _ _ _ _ _)
    · rw [(h c).2.1, (hagree c).1, (hagree c).2.1, (hagree c).2.2.1, (hagree c).2.2.2.1, (hagree c).2.2.2.2.2.1, (hagree c).2.2.2.2.2.2.2.2.1, (hagree c).2.2.2.2.2.2.2.2.2]
      exact (Cert.ReferenceIdeal.Read.val_main_v35_eq _ _ _ _ _ _ _).trans (Cert.RefValue.ref_q _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
